-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x4096 : Shape := ⟨3, ![256, 64, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S_ : Shape := ⟨0, ![]⟩

class Facts : Prop where
  bcast_S_S256x64x4096 : S_.BroadcastsInDim S256x64x4096 (![] : Fin 0 → Fin S256x64x4096.rank)
  reducesTo_S256x64x4096_S_d0_1_2 : S256x64x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S4096x4096 .f32) (main_arg8 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S64 .f32) (main_arg5 : FVec F S64x4096 .f32) (main_arg6 : FVec F S64 .f32) (main_arg7 : FVec F S4096x4096 .f32) (main_arg8 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4096 .f32 := Host.absf main_arg5
  let main_cst_8 : FVec F S_ .f32 := constant S_ .f32 0x7F800000#32
  let main_v25 : FVec F S64x4096 .f32 := broadcastInDim S64x4096 ![] bcast_S_S64x4096 main_cst_8
  let main_v26 : IVec S64x4096 1 := cmpf .olt main_v24 main_v25
  let main_c_9 : IVec S_ 1 := constantI S_ 1 1#1
  let main_v27 : IVec S_ 1 := (fun x v => Host.reduce IntOp.andi x v reducesTo_S64x4096_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S256x64x4096 .f32) (main_arg1 : FVec F S4096x4096 .f32) (main_arg2 : FVec F S4096 .f32) (main_arg3 : FVec F S64x4096 .f32) (main_arg4 : FVec F S64 .f32) (main_arg5 : FVec F S64x4096 .f32) (main_arg6 : FVec F S64 .f32) (main_arg7 : FVec F S4096x4096 .f32) (main_arg8 : FVec F S4096 .f32) : IVec S_ 1 :=
  let main_v0 : FVec F S256x64x4096 .f32 := Host.absf main_arg0
  let main_cst : FVec F S_ .f32 := constant S_ .f32 0x7F800000#32
  let main_v1 : FVec F S256x64x4096 .f32 := broadcastInDim S256x64x4096 ![] bcast_S_S256x64x4096 main_cst
  let main_v2 : IVec S256x64x4096 1 := cmpf .olt main_v0 main_v1
  let main_c : IVec S_ 1 := constantI S_ 1 1#1
  let main_v3 : IVec S_ 1 := (fun x v => Host.reduce IntOp.andi x v reducesTo_S256x64x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_arg6 main_arg7 main_arg8 main_v13 main_v16
-- ==== Kernel.lean ====
abbrev S256x64x4096 : Shape := ⟨3, ![256, 64, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S16384x4096 : Shape := ⟨2, ![16384, 4096]⟩
abbrev S4096x64 : Shape := ⟨2, ![4096, 64]⟩
abbrev S4096x128 : Shape := ⟨2, ![4096, 128]⟩
abbrev S128 : Shape := ⟨1, ![128]⟩
abbrev S1x128 : Shape := ⟨2, ![1, 128]⟩
abbrev S16384x64 : Shape := ⟨2, ![16384, 64]⟩
abbrev S2048x1024 : Shape := ⟨2, ![2048, 1024]⟩
abbrev S1024x128 : Shape := ⟨2, ![1024, 128]⟩
abbrev S2048x64 : Shape := ⟨2, ![2048, 64]⟩
abbrev S2048x128 : Shape := ⟨2, ![2048, 128]⟩
abbrev S256x64x64 : Shape := ⟨3, ![256, 64, 64]⟩
abbrev S1x4096 : Shape := ⟨2, ![1, 4096]⟩
abbrev S1024x1024 : Shape := ⟨2, ![1024, 1024]⟩
abbrev S1024x512 : Shape := ⟨2, ![1024, 512]⟩
abbrev S1x512 : Shape := ⟨2, ![1, 512]⟩
abbrev S1024x64 : Shape := ⟨2, ![1024, 64]⟩
abbrev S1024x8x64 : Shape := ⟨3, ![1024, 8, 64]⟩
abbrev S1024x1x64 : Shape := ⟨3, ![1024, 1, 64]⟩
abbrev S1024x8 : Shape := ⟨2, ![1024, 8]⟩
abbrev S1024x8x1 : Shape := ⟨3, ![1024, 8, 1]⟩
abbrev S1x1024 : Shape := ⟨2, ![1, 1024]⟩

abbrev nBuf : Space → Nat
  | .hbm => 31
  | .vmem => 32
  | .smem => 0
  | _ => 0

abbrev bufTy : (tb : Table) → Fin (tcTables nBuf tb) → BufTy
  | .hbm, ⟨0, _⟩ => ⟨S256x64x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S64, .f32⟩
  | .hbm, ⟨5, _⟩ => ⟨S64x4096, .f32⟩
  | .hbm, ⟨6, _⟩ => ⟨S64, .f32⟩
  | .hbm, ⟨7, _⟩ => ⟨S4096x4096, .f32⟩
  | .hbm, ⟨8, _⟩ => ⟨S4096, .f32⟩
  | .hbm, ⟨9, _⟩ => ⟨S16384x4096, .f32⟩
  | .hbm, ⟨10, _⟩ => ⟨S16384x4096, .bf16⟩
  | .hbm, ⟨11, _⟩ => ⟨S4096x4096, .f32⟩
  | .hbm, ⟨12, _⟩ => ⟨S4096x4096, .bf16⟩
  | .hbm, ⟨13, _⟩ => ⟨S4096x64, .f32⟩
  | .hbm, ⟨14, _⟩ => ⟨S4096x64, .f32⟩
  | .hbm, ⟨15, _⟩ => ⟨S4096x128, .f32⟩
  | .hbm, ⟨16, _⟩ => ⟨S4096x128, .bf16⟩
  | .hbm, ⟨17, _⟩ => ⟨S128, .f32⟩
  | .hbm, ⟨18, _⟩ => ⟨S4096x4096, .f32⟩
  | .hbm, ⟨19, _⟩ => ⟨S4096x4096, .bf16⟩
  | .hbm, ⟨20, _⟩ => ⟨S1x128, .f32⟩
  | .hbm, ⟨21, _⟩ => ⟨S16384x64, .f32⟩
  | .hbm, ⟨22, _⟩ => ⟨S16384x64, .f32⟩
  | .hbm, ⟨23, _⟩ => ⟨S256x64x64, .f32⟩
  | .hbm, ⟨24, _⟩ => ⟨S256x64x64, .f32⟩
  | .hbm, ⟨25, _⟩ => ⟨S16384x64, .f32⟩
  | .hbm, ⟨26, _⟩ => ⟨S1x4096, .f32⟩
  | .hbm, ⟨27, _⟩ => ⟨S16384x4096, .bf16⟩
  | .hbm, ⟨28, _⟩ => ⟨S1x4096, .f32⟩
  | .hbm, ⟨29, _⟩ => ⟨S16384x4096, .f32⟩
  | .hbm, ⟨30, _⟩ => ⟨S256x64x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .bf16⟩
  | .local _ .vmem, ⟨13, _⟩ => ⟨S1024x512, .bf16⟩
  | .local _ .vmem, ⟨14, _⟩ => ⟨S1x512, .f32⟩
  | .local _ .vmem, ⟨15, _⟩ => ⟨S1x512, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S1x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | _, _ => ⟨S256x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![16, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S256x64x4096_S16384x4096 : S256x64x4096.ShapeCasts S16384x4096
  bitsLt_bf16_f32 : FTy.bits .bf16 < FTy.bits .f32
  transposes_S4096x4096_S4096x4096_1_0 : S4096x4096.Transposes [1, 0] S4096x4096
  transposes_S64x4096_S4096x64_1_0 : S64x4096.Transposes [1, 0] S4096x64
  concatenates_S4096x64_S4096x64_S4096x128_d1 : Shape.Concatenates [S4096x64, S4096x64] S4096x128 1
  concatenates_S64_S64_S128_d0 : Shape.Concatenates [S64, S64] S128 0
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2048x128_o0_0_S2048x64 : S2048x128.Slices ![0, 0] S2048x64
  inb_S2048x64_S2048x64_0_0 : ∀ a, (![0, 0] : Fin 2 → Nat) a + S2048x64.size a ≤ S2048x64.size a
  h_S2048x64 : 0 < S2048x64.numel
  slices_S2048x128_o0_64_S2048x64 : S2048x128.Slices ![0, 64] S2048x64
  shapeCasts_S16384x64_S256x64x64 : S16384x64.ShapeCasts S256x64x64
  transposes_S256x64x64_S256x64x64_0_2_1 : S256x64x64.Transposes [0, 2, 1] S256x64x64
  shapeCasts_S256x64x64_S16384x64 : S256x64x64.ShapeCasts S16384x64
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1024x8x64 : S1024x512.ShapeCasts S1024x8x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S1024x64_S1024x1x64 : S1024x64.ShapeCasts S1024x1x64
  broadcasts_S1024x1x64_S1024x8x64 : S1024x1x64.Broadcasts S1024x8x64
  reduces_S1024x8x64_S1024x8 : S1024x8x64.Reduces [2] S1024x8
  shapeCasts_S1024x8_S1024x8x1 : S1024x8.ShapeCasts S1024x8x1
  broadcasts_S1024x8x1_S1024x8x64 : S1024x8x1.Broadcasts S1024x8x64
  shapeCasts_S1024x8x64_S1024x512 : S1024x8x64.ShapeCasts S1024x512
  packedbf16_S1024x512_S1024x512_0_0 : (Rect.unit (s := S1024x512) ![0, 0] S1024x512.size inb_S1024x512_S1024x512_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S256x64x4096 : S16384x4096.ShapeCasts S256x64x4096
  dot_S2048x1024_S1024x128_S2048x128_1_0_0_1_n_n_wf : DotDims.WF S2048x1024 S1024x128 S2048x128 [1] [0] [0] [1] [] []
  dot_S1024x1024_S1024x512_S1024x512_1_0_0_1_n_n_wf : DotDims.WF S1024x1024 S1024x512 S1024x512 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .bf16 = 32 ∨ (Rect.block (s := S4096x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x4096.size a
  hwx1_0 : ∀ i : grid1.Coords, EltTy.bits .bf16 = 32 ∨ (Rect.block (s := S16384x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S16384x64.size a
  hwx1_4 : ∀ i : grid1.Coords, EltTy.bits .f32 = 32 ∨ (Rect.block (s := S16384x64) S1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S16384x4096.size a
  hwx1_5 : ∀ i : grid1.Coords, EltTy.bits .bf16 = 32 ∨ (Rect.block (s := S16384x4096) S1024x512.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x4096.size a
  hwx2_0 : ∀ i : grid2.Coords, EltTy.bits .bf16 = 32 ∨ (Rect.block (s := S16384x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S16384x4096.size a
  hwx2_3 : ∀ i : grid2.Coords, EltTy.bits .f32 = 32 ∨ (Rect.block (s := S16384x4096) S1024x1024.size (cc2_transform_3 i) (hinb2_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S1024x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v17) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S256x64x4096 : Shape := ⟨3, ![256, 64, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S1x1x4096 : Shape := ⟨3, ![1, 1, 4096]⟩
abbrev S256x64x64x64 : Shape := ⟨4, ![256, 64, 64, 64]⟩
abbrev S256x64x64 : Shape := ⟨3, ![256, 64, 64]⟩
abbrev S1x1x64 : Shape := ⟨3, ![1, 1, 64]⟩
abbrev S256x1x64x64 : Shape := ⟨4, ![256, 1, 64, 64]⟩
abbrev S_ : Shape := ⟨0, ![]⟩
abbrev S256x64x64x1 : Shape := ⟨4, ![256, 64, 64, 1]⟩

abbrev nBuf : Space → Nat
  | .hbm => 53
  | .vmem => 0
  | .smem => 0
  | _ => 0

abbrev bufTy : (tb : Table) → Fin (tcTables nBuf tb) → BufTy
  | .hbm, ⟨0, _⟩ => ⟨S256x64x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S64, .f32⟩
  | .hbm, ⟨5, _⟩ => ⟨S64x4096, .f32⟩
  | .hbm, ⟨6, _⟩ => ⟨S64, .f32⟩
  | .hbm, ⟨7, _⟩ => ⟨S4096x4096, .f32⟩
  | .hbm, ⟨8, _⟩ => ⟨S4096, .f32⟩
  | .hbm, ⟨9, _⟩ => ⟨S256x64x4096, .f32⟩
  | .hbm, ⟨10, _⟩ => ⟨S1x1x4096, .f32⟩
  | .hbm, ⟨11, _⟩ => ⟨S256x64x4096, .f32⟩
  | .hbm, ⟨12, _⟩ => ⟨S256x64x4096, .f32⟩
  | .hbm, ⟨13, _⟩ => ⟨S256x64x64x64, .f32⟩
  | .hbm, ⟨14, _⟩ => ⟨S256x64x64x64, .f32⟩
  | .hbm, ⟨15, _⟩ => ⟨S256x64x64, .f32⟩
  | .hbm, ⟨16, _⟩ => ⟨S1x1x64, .f32⟩
  | .hbm, ⟨17, _⟩ => ⟨S256x64x64, .f32⟩
  | .hbm, ⟨18, _⟩ => ⟨S256x64x64, .f32⟩
  | .hbm, ⟨19, _⟩ => ⟨S256x64x64, .f32⟩
  | .hbm, ⟨20, _⟩ => ⟨S1x1x64, .f32⟩
  | .hbm, ⟨21, _⟩ => ⟨S256x64x64, .f32⟩
  | .hbm, ⟨22, _⟩ => ⟨S256x64x64, .f32⟩
  | .hbm, ⟨23, _⟩ => ⟨S256x1x64x64, .f32⟩
  | .hbm, ⟨24, _⟩ => ⟨S256x1x64x64, .f32⟩
  | .hbm, ⟨25, _⟩ => ⟨S256x64x64x64, .f32⟩
  | .hbm, ⟨26, _⟩ => ⟨S256x64x64x64, .f32⟩
  | .hbm, ⟨27, _⟩ => ⟨S_, .f32⟩
  | .hbm, ⟨28, _⟩ => ⟨S256x64x64x64, .f32⟩
  | .hbm, ⟨29, _⟩ => ⟨S256x64x64x64, .f32⟩
  | .hbm, ⟨30, _⟩ => ⟨S_, .f32⟩
  | .hbm, ⟨31, _⟩ => ⟨S256x64x64, .f32⟩
  | .hbm, ⟨32, _⟩ => ⟨S_, .f32⟩
  | .hbm, ⟨33, _⟩ => ⟨S256x64x64, .f32⟩
  | .hbm, ⟨34, _⟩ => ⟨S256x64x64, .f32⟩
  | .hbm, ⟨35, _⟩ => ⟨S256x64x64x1, .f32⟩
  | .hbm, ⟨36, _⟩ => ⟨S256x64x64x64, .f32⟩
  | .hbm, ⟨37, _⟩ => ⟨S256x64x64x64, .f32⟩
  | .hbm, ⟨38, _⟩ => ⟨S256x64x64x64, .f32⟩
  | .hbm, ⟨39, _⟩ => ⟨S_, .f32⟩
  | .hbm, ⟨40, _⟩ => ⟨S256x64x64, .f32⟩
  | .hbm, ⟨41, _⟩ => ⟨S256x64x64x1, .f32⟩
  | .hbm, ⟨42, _⟩ => ⟨S256x64x64x64, .f32⟩
  | .hbm, ⟨43, _⟩ => ⟨S256x64x64x64, .f32⟩
  | .hbm, ⟨44, _⟩ => ⟨S256x1x64x64, .f32⟩
  | .hbm, ⟨45, _⟩ => ⟨S256x64x64x64, .f32⟩
  | .hbm, ⟨46, _⟩ => ⟨S256x64x64x64, .f32⟩
  | .hbm, ⟨47, _⟩ => ⟨S256x64x64x64, .f32⟩
  | .hbm, ⟨48, _⟩ => ⟨S256x64x4096, .f32⟩
  | .hbm, ⟨49, _⟩ => ⟨S256x64x4096, .f32⟩
  | .hbm, ⟨50, _⟩ => ⟨S1x1x4096, .f32⟩
  | .hbm, ⟨51, _⟩ => ⟨S256x64x4096, .f32⟩
  | .hbm, ⟨52, _⟩ => ⟨S256x64x4096, .f32⟩
  | _, _ => ⟨S256x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S256x64x4096_0_1_2 : S1x1x4096.BroadcastsInDim S256x64x4096 (![0, 1, 2] : Fin 3 → Fin S256x64x4096.rank)
  shapeCasts_S256x64x4096_S256x64x64x64 : S256x64x4096.ShapeCasts S256x64x64x64
  transposes_S256x64x64x64_S256x64x64x64_0_2_1_3 : S256x64x64x64.Transposes [0, 2, 1, 3] S256x64x64x64
  bcast_S64_S1x1x64_2 : S64.BroadcastsInDim S1x1x64 (![2] : Fin 1 → Fin S1x1x64.rank)
  bcast_S1x1x64_S256x64x64_0_1_2 : S1x1x64.BroadcastsInDim S256x64x64 (![0, 1, 2] : Fin 3 → Fin S256x64x64.rank)
  bcast_S256x64x64_S256x1x64x64_0_2_3 : S256x64x64.BroadcastsInDim S256x1x64x64 (![0, 2, 3] : Fin 3 → Fin S256x1x64x64.rank)
  transposes_S256x1x64x64_S256x1x64x64_0_1_3_2 : S256x1x64x64.Transposes [0, 1, 3, 2] S256x1x64x64
  bcast_S256x1x64x64_S256x64x64x64_0_1_2_3 : S256x1x64x64.BroadcastsInDim S256x64x64x64 (![0, 1, 2, 3] : Fin 4 → Fin S256x64x64x64.rank)
  bcast_S_S256x64x64x64 : S_.BroadcastsInDim S256x64x64x64 (![] : Fin 0 → Fin S256x64x64x64.rank)
  reducesTo_S256x64x64x64_S256x64x64_d3 : S256x64x64x64.ReducesTo [3] S256x64x64
  h_S_ : 0 < S_.numel
  bcast_S_S256x64x64 : S_.BroadcastsInDim S256x64x64 (![] : Fin 0 → Fin S256x64x64.rank)
  bcast_S256x64x64_S256x64x64x1_0_1_2 : S256x64x64.BroadcastsInDim S256x64x64x1 (![0, 1, 2] : Fin 3 → Fin S256x64x64x1.rank)
  bcast_S256x64x64x1_S256x64x64x64_0_1_2_3 : S256x64x64x1.BroadcastsInDim S256x64x64x64 (![0, 1, 2, 3] : Fin 4 → Fin S256x64x64x64.rank)
  shapeCasts_S256x64x64x64_S256x64x4096 : S256x64x64x64.ShapeCasts S256x64x4096
  dot_S256x64x4096_S4096x4096_S256x64x4096_2_1_01_0_n_n_wf : DotDims.WF S256x64x4096 S4096x4096 S256x64x4096 [2] [1] [0, 1] [0] [] []
  dot_S256x64x4096_S64x4096_S256x64x64_2_1_01_0_n_n_wf : DotDims.WF S256x64x4096 S64x4096 S256x64x64 [2] [1] [0, 1] [0] [] []

variable [Facts₀]

def dot_S256x64x4096_S4096x4096_S256x64x4096_2_1_01_0_n_n : DotDims S256x64x4096 S4096x4096 S256x64x4096 where
  lhsContracting := [2]
  rhsContracting := [1]
  lhsNonContracting := [0, 1]
  rhsNonContracting := [0]
  lhsBatch := []
  rhsBatch := []
  wf := dot_S256x64x4096_S4096x4096_S256x64x4096_2_1_01_0_n_n_wf
def dot_S256x64x4096_S64x4096_S256x64x64_2_1_01_0_n_n : DotDims S256x64x4096 S64x4096 S256x64x64 where
  lhsContracting := [2]
  rhsContracting := [1]
  lhsNonContracting := [0, 1]
  rhsNonContracting := [0]
  lhsBatch := []
  rhsBatch := []
  wf := dot_S256x64x4096_S64x4096_S256x64x64_2_1_01_0_n_n_wf

class Facts : Prop extends Facts₀ where

variable [Facts]
-- ==== Proof.LibOwns.lean ====
import Idealize.ShloMosaic.Lib.Pipeline.FrameBody

noncomputable section

namespace Cert.Lib

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {F : FTy → Type} [FloatOps F]

/-- A whole memref's cells at the raw contents that read back as `X` are the memref owned at `X`. -/
theorem owns_back (c : Dev nD) {sh : Shape} {e : EltTy} (m : Memref sig .tc .vmem sh e) (h : m.IsWhole) (X : Vec F sh e) :
    (m.view.loc (c : Thread nD τ) ↦[m.view.set]{fullShare} h.unread X : sProp (MT nD τ sig Unit (Elt F) ℕ (UR sig nD τ) ℕ))
      ⊢ iprop(∃ f, ⌜m.view.read (Elt F) f = X⌝ ∗ (m.view.loc (c : Thread nD τ) ↦[m.view.set]{fullShare} f)) := by
  iintro H; iexists _; isplitr; · ipureintro; exact h.read_unread _
  iexact H

end Cert.Lib

end
-- ==== Proof.Kernel.Reg0Runs.lean ====
import proofs.«423997_j8272107012808_3_alg».proof.Proof.Gen.Kernel.Launch
import proofs.«423997_j8272107012808_3_alg».proof.Proof.Gen.Kernel.Skeleton
import proofs.«423997_j8272107012808_3_alg».proof.Proof.Gen.Kernel.Points
import proofs.«423997_j8272107012808_3_alg».proof.Proof.LibOwns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (owns_back)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬t.val % 4 = 3 → cfg0.idle 3 (grid0.coords t) = true ∧ (cfg0.win 3).flush t = false := by decide +kernel
theorem idleAt0_4 : ∀ t : Fin cfg0.N, ¬t.val % 4 = 3 → cfg0.idle 4 (grid0.coords t) = true ∧ (cfg0.win 4).flush t = false := by decide +kernel
theorem liveAt0_3 : ∀ t : Fin cfg0.N, t.val % 4 = 3 → cfg0.idle 3 (grid0.coords t) = false := by decide +kernel
theorem liveAt0_4 : ∀ t : Fin cfg0.N, t.val % 4 = 3 → cfg0.idle 4 (grid0.coords t) = false := by decide +kernel

abbrev VO0_3 : View sig .tc .vmem S2048x64 .f32 := (Memref.whole cc0_stg3_0 : Memref sig .tc .vmem S2048x64 .f32).view
abbrev VO0_4 : View sig .tc .vmem S2048x64 .f32 := (Memref.whole cc0_stg4_0 : Memref sig .tc .vmem S2048x64 .f32).view
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x64 .f32 := win0_4.stage (cfg0.slots t 4)
abbrev hs0_4 (t : Fin cfg0.N) : (ms0_4 t).IsWhole := hstage0_4 ((cfg0.slots t 4).cast nbuf0_4)
abbrev scM0_0 : Memref sig .tc .vmem S2048x128 .f32 := Memref.whole cc0_scratch0
abbrev VS0_0 : View sig .tc .vmem S2048x128 .f32 := scM0_0.view

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d)) ∗ rest0 c ∗ (∃ r, prngReg c r)) := by
  unfold Pipeline.ΦA
  rw [Pipeline.scopedRest_split_of_list spec0 c [cc0_scratch0] (by decide) (by decide)]
  simp only [scM0_0, owns_whole]
  exact Idealize.SL.BI.Entails.antisymm Idealize.SL.BI.sep_assoc Idealize.SL.BI.sep_assoc'

section
variable (c : Dev nD) (i : grid0.Coords) (arg2 : Memref sig .tc .vmem S2048x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x128 .f32) (harg7 : arg7.IsWhole)

section
variable (hc0 : cond0_0 i) (hc1 : ¬cond0_1 i) (x0 : Vec F S2048x1024 .bf16) (x1 : Vec F S1024x128 .bf16) (x2 : Vec F S1x128 .f32)
set_option maxHeartbeats 1000000 in
/-- The body's run at the first step of a row's sum. -/
noncomputable def kernelRun0_A :
    Σ' (L3 : List (View.Piece (Elt F) S2048x64 .f32)) (L4 : List (View.Piece (Elt F) S2048x64 .f32)), { LS0 : List (View.Piece (Elt F) S2048x128 .f32) //
      ∀ (xi3 : Vec F S2048x64 .f32) (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kv_matmul_kernel i arg2 harg2 arg3 harg3 arg4 harg4 arg5 harg5 arg6 harg6 arg7 harg7) K } := by
  refine ⟨[], [], ?_, fun xi3 xi4 E K => ?run⟩
  case run =>
    simp only [cc0__kv_matmul_kernel_eq_skeleton]; unfold cc0__kv_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]; · iapply owns_back c _ harg2; iexact H0
    isplitl [H1]; · iapply owns_back c _ harg3; iexact H1
    isplitl [H2]; · iapply owns_back c _ harg4; iexact H2
    isplitl [H3]; · iapply owns_back c _ harg5; iexact H3
    isplitl [H4]; · iapply owns_back c _ harg6; iexact H4
    iexists _; iexact HS0
end

section
variable (hc0 : ¬cond0_0 i) (hc1 : ¬cond0_1 i) (x0 : Vec F S2048x1024 .bf16) (x1 : Vec F S1024x128 .bf16) (x2 : Vec F S1x128 .f32) (xs0 : Vec F S2048x128 .f32)
set_option maxHeartbeats 1000000 in
/-- The body's run at a middle step. -/
noncomputable def kernelRun0_B :
    Σ' (L3 : List (View.Piece (Elt F) S2048x64 .f32)) (L4 : List (View.Piece (Elt F) S2048x64 .f32)), { LS0 : List (View.Piece (Elt F) S2048x128 .f32) //
      ∀ (xi3 : Vec F S2048x64 .f32) (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kv_matmul_kernel i arg2 harg2 arg3 harg3 arg4 harg4 arg5 harg5 arg6 harg6 arg7 harg7) K } := by
  refine ⟨[], [], ?_, fun xi3 xi4 E K => ?run⟩
  case run =>
    simp only [cc0__kv_matmul_kernel_eq_skeleton]; unfold cc0__kv_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]; · iapply owns_back c _ harg2; iexact H0
    isplitl [H1]; · iapply owns_back c _ harg3; iexact H1
    isplitl [H2]; · iapply owns_back c _ harg4; iexact H2
    isplitl [H3]; · iapply owns_back c _ harg5; iexact H3
    isplitl [H4]; · iapply owns_back c _ harg6; iexact H4
    iexists _; iexact HS0
end

section
variable (hc0 : ¬cond0_0 i) (hc1 : cond0_1 i) (x0 : Vec F S2048x1024 .bf16) (x1 : Vec F S1024x128 .bf16) (x2 : Vec F S1x128 .f32) (xs0 : Vec F S2048x128 .f32)
set_option maxHeartbeats 1000000 in
/-- The body's run at the last step. -/
noncomputable def kernelRun0_C :
    Σ' (L3 : List (View.Piece (Elt F) S2048x64 .f32)) (L4 : List (View.Piece (Elt F) S2048x64 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kv_matmul_kernel i arg2 harg2 arg3 harg3 arg4 harg4 arg5 harg5 arg6 harg6 arg7 harg7) K } := by
  refine ⟨?_, ?_, ?_, fun E K => ?run⟩
  case run =>
    simp only [cc0__kv_matmul_kernel_eq_skeleton]; unfold cc0__kv_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]; · iapply owns_back c _ harg2; iexact H0
    isplitl [H1]; · iapply owns_back c _ harg3; iexact H1
    isplitl [H2]; · iapply owns_back c _ harg4; iexact H2
    isplitl [H3]; · iexists _; iexact H3
    isplitl [H4]; · iexists _; iexact H4
    iexists _; iexact HS0
end

end

end Cert.Kernel.Hand

end
-- ==== Proof.Kernel.Reg0.lean ====
import proofs.«423997_j8272107012808_3_alg».proof.Proof.Kernel.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (i : grid0.Coords) (arg2 : Memref sig .tc .vmem S2048x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x128 .f32) (harg7 : arg7.IsWhole)

section
variable (hc0 : cond0_0 i) (hc1 : ¬cond0_1 i) (x0 : Vec F S2048x1024 .bf16) (x1 : Vec F S1024x128 .bf16) (x2 : Vec F S1x128 .f32)
theorem scover0_A_0 (y : S2048x128.Idx) : ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x128.size (by sl_kernel_rfl) y
end

section
variable (hc0 : ¬cond0_0 i) (hc1 : ¬cond0_1 i) (x0 : Vec F S2048x1024 .bf16) (x1 : Vec F S1024x128 .bf16) (x2 : Vec F S1x128 .f32) (xs0 : Vec F S2048x128 .f32)
theorem scover0_B_0 (y : S2048x128.Idx) : ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S2048x128.size (by sl_kernel_rfl) y
end

section
variable (hc0 : ¬cond0_0 i) (hc1 : cond0_1 i) (x0 : Vec F S2048x1024 .bf16) (x1 : Vec F S1024x128 .bf16) (x2 : Vec F S1x128 .f32) (xs0 : Vec F S2048x128 .f32)
theorem cover0_C_3 (y : S2048x64.Idx) : ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S2048x64.size (by sl_kernel_rfl) y
theorem cover0_C_4 (y : S2048x64.Idx) : ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S2048x64.size (by sl_kernel_rfl) y
theorem scover0_C_0 (y : S2048x128.Idx) : ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S2048x128.size (by sl_kernel_rfl) y
end

end

/-- A run's piece lists read back over junk: the output blocks, then the accumulator. -/
def rb0 {P : List (View.Piece (Elt F) S2048x64 .f32) → List (View.Piece (Elt F) S2048x64 .f32) → List (View.Piece (Elt F) S2048x128 .f32) → Prop}
    (r : Σ' (L3 : List (View.Piece (Elt F) S2048x64 .f32)) (L4 : List (View.Piece (Elt F) S2048x64 .f32)), { LS0 : List (View.Piece (Elt F) S2048x128 .f32) // P L3 L4 LS0 }) : Vec F S2048x64 .f32 × Vec F S2048x64 .f32 × Vec F S2048x128 .f32 :=
  (VO0_3.read (Elt F) (VO0_3.writes (Elt F) VO0_3.junk r.1), VO0_4.read (Elt F) (VO0_4.writes (Elt F) VO0_4.junk r.2.1), VS0_0.read (Elt F) (VS0_0.writes (Elt F) VS0_0.junk r.2.2.1))

/-- The body's run at point `t`, by the step of the row's sum the point is. -/
def runA0 (c : Dev nD) (t : Fin cfg0.N) (h0 : t.val % 4 = 0) (h1 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)
def runB0 (c : Dev nD) (t : Fin cfg0.N) (h0 : ¬t.val % 4 = 0) (h1 : ¬t.val % 4 = 3) (xs0 : Vec F S2048x128 .f32) :=
  kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs0
def runC0 (c : Dev nD) (t : Fin cfg0.N) (h0 : ¬t.val % 4 = 0) (h1 : t.val % 4 = 3) (xs0 : Vec F S2048x128 .f32) :=
  kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs0

/-- What the output blocks and the accumulator hold after the body at position `n`: the accumulator is carried from one point to the next. -/
def outsAt0 (c : Dev nD) : (n : ℕ) → n < cfg0.N → Vec F S2048x64 .f32 × Vec F S2048x64 .f32 × Vec F S2048x128 .f32
  | 0, hn => rb0 (runA0 V c ⟨0, hn⟩ (Nat.zero_mod _) (by show ¬0 % 4 = 3; decide))
  | n + 1, hn =>
    if h0 : (n + 1) % 4 = 0 then
      rb0 (runA0 V c ⟨n + 1, hn⟩ h0 (by show ¬(n + 1) % 4 = 3; omega))
    else if h1 : (n + 1) % 4 = 3 then
      rb0 (runC0 V c ⟨n + 1, hn⟩ h0 h1 (outsAt0 c n (Nat.lt_of_succ_lt hn)).2.2)
    else
      rb0 (runB0 V c ⟨n + 1, hn⟩ h0 h1 (outsAt0 c n (Nat.lt_of_succ_lt hn)).2.2)

theorem outsAt0_A (c : Dev nD) (t : Fin cfg0.N) (h0 : t.val % 4 = 0) (h1 : ¬t.val % 4 = 3) :
    outsAt0 V c t.val t.isLt = rb0 (runA0 V c t h0 h1) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = rb0 (runB0 V c t h0 h1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = rb0 (runC0 V c t h0 h1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ rest0 c ∗ (∃ r, prngReg c r))

theorem PhiS0_succ (c : Dev nD) (n : ℕ) (hn : n < cfg0.N) :
    PhiS0 V c (n + 1) hn = iprop(iprop(owns (c : Thread nD τ) scM0_0 fullShare ((outsAt0 V c n hn).2.2)) ∗ rest0 c ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2)) ∗ rest0 c ∗ (∃ r, prngReg c r)) := by
  cases n with
  | zero => exact absurd rfl hz
  | succ n => rfl

/-- Before any point the invariant gives the accumulator at some contents, beside what the body never touches. -/
theorem PhiS0_weak (c : Dev nD) (n : ℕ) (h : n ≤ cfg0.N) :
    PhiS0 V c n h ⊢ iprop(iprop((∃ d, owns (c : Thread nD τ) scM0_0 fullShare d)) ∗ rest0 c ∗ (∃ r, prngReg c r)) := by
  cases n with
  | zero => exact Idealize.SL.BI.BIBase.Entails.of_eq (PhiA0_eq c)
  | succ n =>
    rw [PhiS0_succ V c n h]
    iintro ⟨HS0, Hr⟩
    isplitl [HS0]; · iexists _; iexact HS0
    iexact Hr

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0 V c]; unfold Dat.blockOf iblk0; rw [A_eq0 V c]; try rfl) t d).trans
    (by unfold Dat.fetched Dat.blockOf iblk0; rw [A_eq0 V c]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1 V c]; unfold Dat.blockOf iblk0; rw [A_eq0 V c]; try rfl) t d).trans
    (by unfold Dat.fetched Dat.blockOf iblk0; rw [A_eq0 V c]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2 V c]; unfold Dat.blockOf iblk0; rw [A_eq0 V c]; try rfl) t d).trans
    (by unfold Dat.fetched Dat.blockOf iblk0; rw [A_eq0 V c]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiS0 V c (t.val + 1) t.isLt from rfl, PhiS0_succ, PhiS0_castSucc V c t,
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    show (dat0 V c).leavesExact 2 t = owns (c : Thread nD τ) (ms0_2 t) fullShare ((dat0 V c).after 2 t) from by
      unfold Dat.leavesExact; rw [liveAt0_2 t], after0_2]
  by_cases h1 : t.val % 4 = 3
  · have h0 : ¬t.val % 4 = 0 := by omega
    rw [show (dat0 V c).leavesExact 3 t = owns (c : Thread nD τ) (ms0_3 t) fullShare ((dat0 V c).after 3 t) from by
        unfold Dat.leavesExact; rw [liveAt0_3 t h1], after0_3,
      show (dat0 V c).leavesExact 4 t = owns (c : Thread nD τ) (ms0_4 t) fullShare ((dat0 V c).after 4 t) from by
        unfold Dat.leavesExact; rw [liveAt0_4 t h1], after0_4,
      outsAt0_C V c t h0 h1, PhiS0_pos V c _ _ (by omega)]
    unfold rb0; (try dsimp only)
    iintro ⟨⟨HS0, Hr, Hg⟩, Ho, ⟨%d0, H0⟩, ⟨%d1, H1⟩, ⟨%d2, H2⟩, ⟨%d3, H3⟩, ⟨%d4, H4⟩⟩
    iapply ((runC0 V c t h0 h1 _).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 Hr Hg]
    · isplitl [HS0]
      · unfold owns; iexists _; isplitr
        swap; · iexact HS0
        ipureintro; exact View.read_writes_of_cover _ _ _ _ _ (scover0_C_0 c _ _ _ _ _ _ _ _ _ _ _ _ _ _ _ _ _ _ _)
      isplitl [Hr]; · iexact Hr
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _)
    unfold owns; iexists _; isplitr
    swap; · iexact H4
    ipureintro; exact View.read_writes_of_cover _ _ _ _ _ (cover0_C_4 c _ _ _ _ _ _ _ _ _ _ _ _ _ _ _ _ _ _ _)
  · rw [Dat.leavesExact_idle (dat0 V c) 3 t (idleAt0_3 t h1).1 (idleAt0_3 t h1).2,
      Dat.leavesExact_idle (dat0 V c) 4 t (idleAt0_4 t h1).1 (idleAt0_4 t h1).2]
    by_cases h0 : t.val % 4 = 0
    · rw [outsAt0_A V c t h0 h1]
      unfold rb0; (try dsimp only)
      iintro ⟨HΦ, Ho, ⟨%d0, H0⟩, ⟨%d1, H1⟩, ⟨%d2, H2⟩, ⟨%d3, H3⟩, ⟨%d4, H4⟩⟩
      ihave HΦ' := (PhiS0_weak V c _ _) $$ HΦ
      icases HΦ' with ⟨HS0, Hr, Hg⟩
      iapply ((runA0 V c t h0 h1).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4
    · rw [outsAt0_B V c t h0 h1, PhiS0_pos V c _ _ (by omega)]
      unfold rb0; (try dsimp only)
      iintro ⟨⟨HS0, Hr, Hg⟩, Ho, ⟨%d0, H0⟩, ⟨%d1, H1⟩, ⟨%d2, H2⟩, ⟨%d3, H3⟩, ⟨%d4, H4⟩⟩
      iapply ((runB0 V c t h0 h1 _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0]
        · unfold owns; iexists _; isplitr
          swap; · iexact HS0
          ipureintro; exact View.read_writes_of_cover _ _ _ _ _ (scover0_B_0 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem hout0 (c : Dev nD) : (dat0 V c).Φ (Fin.last cfg0.N) ⊢ Pipeline.ΦA spec0 c :=
  (PhiS0_weak V c (Fin.last cfg0.N).val (Nat.le_of_lt_succ (Fin.last cfg0.N).isLt)).trans (Idealize.SL.BI.BIBase.Entails.of_eq (PhiA0_eq c).symm)

end Cert.Kernel.Hand

end
-- ==== Proof.Kernel.Reg1Runs.lean ====
import proofs.«423997_j8272107012808_3_alg».proof.Proof.Gen.Kernel.Launch
import proofs.«423997_j8272107012808_3_alg».proof.Proof.Gen.Kernel.Skeleton
import proofs.«423997_j8272107012808_3_alg».proof.Proof.Gen.Kernel.Points
import proofs.«423997_j8272107012808_3_alg».proof.Proof.LibOwns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (owns_back)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem idleAt1_5 : ∀ t : Fin cfg1.N, ¬t.val % 4 = 3 → cfg1.idle 5 (grid1.coords t) = true ∧ (cfg1.win 5).flush t = false := by decide +kernel
theorem liveAt1_5 : ∀ t : Fin cfg1.N, t.val % 4 = 3 → cfg1.idle 5 (grid1.coords t) = false := by decide +kernel

abbrev VO1_5 : View sig .tc .vmem S1024x512 .bf16 := (Memref.whole cc1_stg5_0 : Memref sig .tc .vmem S1024x512 .bf16).view

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)

abbrev scM1_0 : Memref sig .tc .vmem S1024x512 .f32 := Memref.whole cc1_scratch0

abbrev VS1_0 : View sig .tc .vmem S1024x512 .f32 := scM1_0.view

def rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop((∃ d, owns (c : Thread nD τ) scM1_0 fullShare d) ∗ rest1 c ∗ (∃ r, prngReg c r)) := by
  unfold Pipeline.ΦA rest1
  rw [Pipeline.scopedRest_split_of_list spec1 c [cc1_scratch0] (by decide) (by decide)]
  simp only [bigSepL_singleton, scM1_0, owns_whole]
  exact BI.equiv_iff.mp ⟨Idealize.SL.BI.sep_assoc, Idealize.SL.BI.sep_assoc'⟩

section
variable (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x512 .bf16) (harg8 : arg8.IsWhole) (arg9 : Memref sig .tc .vmem S1024x512 .f32) (harg9 : arg9.IsWhole)

section
variable (hc0 : cond1_0 i) (hc1 : ¬cond1_1 i) (x0 : Vec F S1024x1024 .bf16) (x1 : Vec F S1024x512 .bf16) (x2 : Vec F S1x512 .f32) (x3 : Vec F S1024x64 .f32) (x4 : Vec F S1024x64 .f32)
set_option maxHeartbeats 1000000 in
noncomputable def kernelRun1_A :
    Σ' (L5 : List (View.Piece (Elt F) S1024x512 .bf16)), { LS0 : List (View.Piece (Elt F) S1024x512 .f32) //
      ∀ (xi5 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    isplitl [H4]; · iapply owns_back c _ harg7; iexact H4
    isplitl [H5]; · iapply owns_back c _ harg8; iexact H5
    iexists _; iexact HS0
end

section
variable (hc0 : ¬cond1_0 i) (hc1 : ¬cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
set_option maxHeartbeats 1000000 in
noncomputable def kernelRun1_B :
    Σ' (L5 : List (View.Piece (Elt F) S1024x512 .bf16)), { LS0 : List (View.Piece (Elt F) S1024x512 .f32) //
      ∀ (xi5 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    isplitl [H4]; · iapply owns_back c _ harg7; iexact H4
    isplitl [H5]; · iapply owns_back c _ harg8; iexact H5
    iexists _; iexact HS0
end

section
variable (hc0 : ¬cond1_0 i) (hc1 : cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
set_option maxHeartbeats 1000000 in
noncomputable def kernelRun1_C :
    Σ' (L5 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    isplitl [H4]; · iapply owns_back c _ harg7; iexact H4
    isplitl [H5]; · iexists _; iexact H5
    iexists _; iexact HS0
end

end

end Cert.Kernel.Hand

end
-- ==== Proof.Kernel.Reg1.lean ====
import proofs.«423997_j8272107012808_3_alg».proof.Proof.Kernel.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x512 .bf16) (harg8 : arg8.IsWhole) (arg9 : Memref sig .tc .vmem S1024x512 .f32) (harg9 : arg9.IsWhole)

section
variable (hc0 : cond1_0 i) (hc1 : ¬cond1_1 i) (x0 : Vec F S1024x1024 .bf16) (x1 : Vec F S1024x512 .bf16) (x2 : Vec F S1x512 .f32) (x3 : Vec F S1024x64 .f32) (x4 : Vec F S1024x64 .f32)
theorem scover1_A_0 (y : S1024x512.Idx) : ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x512.size (by sl_kernel_rfl) y
end

section
variable (hc0 : ¬cond1_0 i) (hc1 : ¬cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
theorem scover1_B_0 (y : S1024x512.Idx) : ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x512.size (by sl_kernel_rfl) y
end

section
variable (hc0 : ¬cond1_0 i) (hc1 : cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
theorem cover1_C_5 (y : S1024x512.Idx) : ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x512.size (by sl_kernel_rfl) y
theorem scover1_C_0 (y : S1024x512.Idx) : ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x512.size (by sl_kernel_rfl) y
end

end

/-- A run's piece lists read back over junk: the output block, then the accumulator. -/
def rb1 {P : List (View.Piece (Elt F) S1024x512 .bf16) → List (View.Piece (Elt F) S1024x512 .f32) → Prop}
    (r : Σ' (L5 : List (View.Piece (Elt F) S1024x512 .bf16)), { LS0 : List (View.Piece (Elt F) S1024x512 .f32) // P L5 LS0 }) : Vec F S1024x512 .bf16 × Vec F S1024x512 .f32 :=
  (VO1_5.read (Elt F) (VO1_5.writes (Elt F) VO1_5.junk r.1), VS1_0.read (Elt F) (VS1_0.writes (Elt F) VS1_0.junk r.2.1))

/-- The body's run at point `t`, by the step of the row's sum the point is. -/
def runA1 (c : Dev nD) (t : Fin cfg1.N) (h0 : t.val % 4 = 0) (h1 : ¬t.val % 4 = 3) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
def runB1 (c : Dev nD) (t : Fin cfg1.N) (h0 : ¬t.val % 4 = 0) (h1 : ¬t.val % 4 = 3) (xs0 : Vec F S1024x512 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0
def runC1 (c : Dev nD) (t : Fin cfg1.N) (h0 : ¬t.val % 4 = 0) (h1 : t.val % 4 = 3) (xs0 : Vec F S1024x512 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0

/-- What the output block and the accumulator hold after the body at position `n`: the accumulator is carried from one point to the next. -/
def outsAt1 (c : Dev nD) : (n : ℕ) → n < cfg1.N → Vec F S1024x512 .bf16 × Vec F S1024x512 .f32
  | 0, hn => rb1 (runA1 V c ⟨0, hn⟩ (Nat.zero_mod _) (by show ¬0 % 4 = 3; decide))
  | n + 1, hn =>
    if h0 : (n + 1) % 4 = 0 then
      rb1 (runA1 V c ⟨n + 1, hn⟩ h0 (by show ¬(n + 1) % 4 = 3; omega))
    else if h1 : (n + 1) % 4 = 3 then
      rb1 (runC1 V c ⟨n + 1, hn⟩ h0 h1 (outsAt1 c n (Nat.lt_of_succ_lt hn)).2)
    else
      rb1 (runB1 V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = rb1 (runA1 V c t h0 h1) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = rb1 (runB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = rb1 (runC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ rest1 c ∗ (∃ r, prngReg c r))

theorem PhiS1_succ (c : Dev nD) (n : ℕ) (hn : n < cfg1.N) :
    PhiS1 V c (n + 1) hn = iprop(owns (c : Thread nD τ) scM1_0 fullShare ((outsAt1 V c n hn).2) ∗ rest1 c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ rest1 c ∗ (∃ r, prngReg c r)) := by
  cases n with
  | zero => exact absurd rfl hz
  | succ n => rfl

/-- Before any point the invariant gives the accumulator at some contents, beside what the body never touches. -/
theorem PhiS1_weak (c : Dev nD) (n : ℕ) (h : n ≤ cfg1.N) :
    PhiS1 V c n h ⊢ iprop((∃ d, owns (c : Thread nD τ) scM1_0 fullShare d) ∗ rest1 c ∗ (∃ r, prngReg c r)) := by
  cases n with
  | zero => exact Idealize.SL.BI.BIBase.Entails.of_eq (PhiA1_eq c)
  | succ n =>
    rw [PhiS1_succ V c n h]
    iintro ⟨HS0, Hr⟩
    isplitl [HS0]; · iexists _; iexact HS0
    iexact Hr

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0 V c]; unfold Dat.blockOf iblk1; rw [A_eq1 V c]; try rfl) t d).trans
    (by unfold Dat.fetched Dat.blockOf iblk1; rw [A_eq1 V c]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1 V c]; unfold Dat.blockOf iblk1; rw [A_eq1 V c]; try rfl) t d).trans
    (by unfold Dat.fetched Dat.blockOf iblk1; rw [A_eq1 V c]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2 V c]; unfold Dat.blockOf iblk1; rw [A_eq1 V c]; try rfl) t d).trans
    (by unfold Dat.fetched Dat.blockOf iblk1; rw [A_eq1 V c]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3 V c]; unfold Dat.blockOf iblk1; rw [A_eq1 V c]; try rfl) t d).trans
    (by unfold Dat.fetched Dat.blockOf iblk1; rw [A_eq1 V c]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4 V c]; unfold Dat.blockOf iblk1; rw [A_eq1 V c]; try rfl) t d).trans
    (by unfold Dat.fetched Dat.blockOf iblk1; rw [A_eq1 V c]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = PhiS1 V c (t.val + 1) t.isLt from rfl, PhiS1_succ, PhiS1_castSucc V c t,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  by_cases h1 : t.val % 4 = 3
  · have h0 : ¬t.val % 4 = 0 := by omega
    rw [show (dat1 V c).leavesExact 5 t = owns (c : Thread nD τ) (ms1_5 t) fullShare ((dat1 V c).after 5 t) from by
        unfold Dat.leavesExact; rw [liveAt1_5 t h1], after1_5,
      outsAt1_C V c t h0 h1, PhiS1_pos V c _ _ (by omega)]
    unfold rb1; (try dsimp only)
    iintro ⟨⟨HS0, Hr, Hg⟩, Ho, ⟨%d0, H0⟩, ⟨%d1, H1⟩, ⟨%d2, H2⟩, ⟨%d3, H3⟩, ⟨%d4, H4⟩, ⟨%d5, H5⟩⟩
    iapply ((runC1 V c t h0 h1 _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hr Hg]
    · isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _)
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_C_5 c _ _ _ _ _ _ _ _ _ _ _ _ _ _ _ _ _ _ _ _ _ _ _)
  · rw [Dat.leavesExact_idle (dat1 V c) 5 t (idleAt1_5 t h1).1 (idleAt1_5 t h1).2]
    by_cases h0 : t.val % 4 = 0
    · rw [outsAt1_A V c t h0 h1]
      unfold rb1; (try dsimp only)
      iintro ⟨HΦ, Ho, ⟨%d0, H0⟩, ⟨%d1, H1⟩, ⟨%d2, H2⟩, ⟨%d3, H3⟩, ⟨%d4, H4⟩, ⟨%d5, H5⟩⟩
      ihave HΦ' := (PhiS1_weak V c _ _) $$ HΦ
      icases HΦ' with ⟨HS0, Hr, Hg⟩
      iapply ((runA1 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [outsAt1_B V c t h0 h1, PhiS1_pos V c _ _ (by omega)]
      unfold rb1; (try dsimp only)
      iintro ⟨⟨HS0, Hr, Hg⟩, Ho, ⟨%d0, H0⟩, ⟨%d1, H1⟩, ⟨%d2, H2⟩, ⟨%d3, H3⟩, ⟨%d4, H4⟩, ⟨%d5, H5⟩⟩
      iapply ((runB1 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c :=
  (PhiS1_weak V c (Fin.last cfg1.N).val (Nat.le_of_lt_succ (Fin.last cfg1.N).isLt)).trans (Idealize.SL.BI.BIBase.Entails.of_eq (PhiA1_eq c).symm)

end Cert.Kernel.Hand

end
-- ==== Proof.Kernel.Reg2Runs.lean ====
import proofs.«423997_j8272107012808_3_alg».proof.Proof.Gen.Kernel.Launch
import proofs.«423997_j8272107012808_3_alg».proof.Proof.Gen.Kernel.Skeleton
import proofs.«423997_j8272107012808_3_alg».proof.Proof.Gen.Kernel.Points
import proofs.«423997_j8272107012808_3_alg».proof.Proof.LibOwns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (owns_back)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 2).val) 0#32)) 0#32) = 1#1

theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1

theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem idleAt2_3 : ∀ t : Fin cfg2.N, ¬t.val % 4 = 3 → cfg2.idle 3 (grid2.coords t) = true ∧ (cfg2.win 3).flush t = false := by decide +kernel
theorem liveAt2_3 : ∀ t : Fin cfg2.N, t.val % 4 = 3 → cfg2.idle 3 (grid2.coords t) = false := by decide +kernel

abbrev VO2_3 : View sig .tc .vmem S1024x1024 .f32 := (Memref.whole cc2_stg3_0 : Memref sig .tc .vmem S1024x1024 .f32).view

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)

abbrev scM2_0 : Memref sig .tc .vmem S1024x1024 .f32 := Memref.whole cc2_scratch0

abbrev VS2_0 : View sig .tc .vmem S1024x1024 .f32 := scM2_0.view

def rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop((∃ d, owns (c : Thread nD τ) scM2_0 fullShare d) ∗ rest2 (F := F) c ∗ (∃ r, prngReg c r)) := by
  unfold Pipeline.ΦA rest2
  rw [Pipeline.scopedRest_split_of_list spec2 c [cc2_scratch0] (by decide) (by decide)]
  simp only [bigSepL_singleton, scM2_0, owns_whole]
  exact BI.equiv_iff.mp ⟨BI.sep_assoc, BI.sep_assoc'⟩

section
variable (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)

section
variable (hc0 : cond2_0 i) (hc1 : ¬cond2_1 i) (x0 : Vec F S1024x1024 .bf16) (x1 : Vec F S1024x1024 .bf16) (x2 : Vec F S1x1024 .f32)
set_option maxHeartbeats 1000000 in
noncomputable def kernelRun2_A :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    iexists _; iexact HS0
end

section
variable (hc0 : ¬cond2_0 i) (hc1 : ¬cond2_1 i) (x0 : Vec F S1024x1024 .bf16) (x1 : Vec F S1024x1024 .bf16) (x2 : Vec F S1x1024 .f32) (xs0 : Vec F S1024x1024 .f32)
set_option maxHeartbeats 1000000 in
noncomputable def kernelRun2_B :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    iexists _; iexact HS0
end

section
variable (hc0 : ¬cond2_0 i) (hc1 : cond2_1 i) (x0 : Vec F S1024x1024 .bf16) (x1 : Vec F S1024x1024 .bf16) (x2 : Vec F S1x1024 .f32) (xs0 : Vec F S1024x1024 .f32)
set_option maxHeartbeats 1000000 in
noncomputable def kernelRun2_C :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iexists _; iexact H3
    iexists _; iexact HS0
end

end

end Cert.Kernel.Hand

end
-- ==== Proof.Kernel.Reg2.lean ====
import proofs.«423997_j8272107012808_3_alg».proof.Proof.Kernel.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)

section
variable (hc0 : cond2_0 i) (hc1 : ¬cond2_1 i) (x0 : Vec F S1024x1024 .bf16) (x1 : Vec F S1024x1024 .bf16) (x2 : Vec F S1x1024 .f32)
theorem scover2_A_0 (y : S1024x1024.Idx) : ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y
end

section
variable (hc0 : ¬cond2_0 i) (hc1 : ¬cond2_1 i) (x0 : Vec F S1024x1024 .bf16) (x1 : Vec F S1024x1024 .bf16) (x2 : Vec F S1x1024 .f32) (xs0 : Vec F S1024x1024 .f32)
theorem scover2_B_0 (y : S1024x1024.Idx) : ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y
end

section
variable (hc0 : ¬cond2_0 i) (hc1 : cond2_1 i) (x0 : Vec F S1024x1024 .bf16) (x1 : Vec F S1024x1024 .bf16) (x2 : Vec F S1x1024 .f32) (xs0 : Vec F S1024x1024 .f32)
theorem cover2_C_3 (y : S1024x1024.Idx) : ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y
theorem scover2_C_0 (y : S1024x1024.Idx) : ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y
end

end

/-- A run's piece lists read back over junk: the output block, then the accumulator. -/
def rb2 {P : List (View.Piece (Elt F) S1024x1024 .f32) → List (View.Piece (Elt F) S1024x1024 .f32) → Prop}
    (r : Σ' (L3 : List (View.Piece (Elt F) S1024x1024 .f32)), { LS0 : List (View.Piece (Elt F) S1024x1024 .f32) // P L3 LS0 }) : Vec F S1024x1024 .f32 × Vec F S1024x1024 .f32 :=
  (VO2_3.read (Elt F) (VO2_3.writes (Elt F) VO2_3.junk r.1), VS2_0.read (Elt F) (VS2_0.writes (Elt F) VS2_0.junk r.2.1))

/-- The body's run at point `t`, by the step of the row's sum the point is. -/
def runA2 (c : Dev nD) (t : Fin cfg2.N) (h0 : t.val % 4 = 0) (h1 : ¬t.val % 4 = 3) :=
  kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)
def runB2 (c : Dev nD) (t : Fin cfg2.N) (h0 : ¬t.val % 4 = 0) (h1 : ¬t.val % 4 = 3) (xs0 : Vec F S1024x1024 .f32) :=
  kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs0
def runC2 (c : Dev nD) (t : Fin cfg2.N) (h0 : ¬t.val % 4 = 0) (h1 : t.val % 4 = 3) (xs0 : Vec F S1024x1024 .f32) :=
  kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0

/-- What the output block and the accumulator hold after the body at position `n`: the accumulator is carried from one point to the next. -/
def outsAt2 (c : Dev nD) : (n : ℕ) → n < cfg2.N → Vec F S1024x1024 .f32 × Vec F S1024x1024 .f32
  | 0, hn => rb2 (runA2 V c ⟨0, hn⟩ (Nat.zero_mod _) (by show ¬0 % 4 = 3; decide))
  | n + 1, hn =>
    if h0 : (n + 1) % 4 = 0 then
      rb2 (runA2 V c ⟨n + 1, hn⟩ h0 (by show ¬(n + 1) % 4 = 3; omega))
    else if h1 : (n + 1) % 4 = 3 then
      rb2 (runC2 V c ⟨n + 1, hn⟩ h0 h1 (outsAt2 c n (Nat.lt_of_succ_lt hn)).2)
    else
      rb2 (runB2 V c ⟨n + 1, hn⟩ h0 h1 (outsAt2 c n (Nat.lt_of_succ_lt hn)).2)

theorem outsAt2_A (c : Dev nD) (t : Fin cfg2.N) (h0 : t.val % 4 = 0) (h1 : ¬t.val % 4 = 3) :
    outsAt2 V c t.val t.isLt = rb2 (runA2 V c t h0 h1) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = rb2 (runB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = rb2 (runC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS2 (c : Dev nD) : (n : ℕ) → n ≤ cfg2.N → sProp 𝕄
  | 0, _ => Pipeline.ΦA spec2 c
  | n + 1, hn => iprop(owns (c : Thread nD τ) scM2_0 fullShare ((outsAt2 V c n hn).2) ∗ rest2 (F := F) c ∗ (∃ r, prngReg c r))

theorem PhiS2_succ (c : Dev nD) (n : ℕ) (hn : n < cfg2.N) :
    PhiS2 V c (n + 1) hn = iprop(owns (c : Thread nD τ) scM2_0 fullShare ((outsAt2 V c n hn).2) ∗ rest2 (F := F) c ∗ (∃ r, prngReg c r)) := rfl

theorem PhiS2_pos (c : Dev nD) (n : ℕ) (h : n ≤ cfg2.N) (hz : n ≠ 0) :
    PhiS2 V c n h = iprop(owns (c : Thread nD τ) scM2_0 fullShare ((outsAt2 V c (n - 1) (by omega)).2) ∗ rest2 (F := F) c ∗ (∃ r, prngReg c r)) := by
  cases n with
  | zero => exact absurd rfl hz
  | succ n => rfl

/-- Before any point the invariant gives the accumulator at some contents, beside what the body never touches. -/
theorem PhiS2_weak (c : Dev nD) (n : ℕ) (h : n ≤ cfg2.N) :
    PhiS2 V c n h ⊢ iprop((∃ d, owns (c : Thread nD τ) scM2_0 fullShare d) ∗ rest2 (F := F) c ∗ (∃ r, prngReg c r)) := by
  cases n with
  | zero => exact Idealize.SL.BI.BIBase.Entails.of_eq (PhiA2_eq c)
  | succ n =>
    rw [PhiS2_succ V c n h]
    iintro ⟨HS0, Hr⟩
    isplitl [HS0]; · iexists _; iexact HS0
    iexact Hr

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0 V c]; unfold Dat.blockOf iblk2; rw [A_eq2 V c]; try rfl) t d).trans
    (by unfold Dat.fetched Dat.blockOf iblk2; rw [A_eq2 V c]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1 V c]; unfold Dat.blockOf iblk2; rw [A_eq2 V c]; try rfl) t d).trans
    (by unfold Dat.fetched Dat.blockOf iblk2; rw [A_eq2 V c]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2 V c]; unfold Dat.blockOf iblk2; rw [A_eq2 V c]; try rfl) t d).trans
    (by unfold Dat.fetched Dat.blockOf iblk2; rw [A_eq2 V c]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS2 V c (t.val + 1) t.isLt from rfl, PhiS2_succ, PhiS2_castSucc V c t,
    show (dat2 V c).leavesExact 0 t = owns (c : Thread nD τ) (ms2_0 t) fullShare ((dat2 V c).after 0 t) from by
      unfold Dat.leavesExact; rw [liveAt2_0 t], after2_0,
    show (dat2 V c).leavesExact 1 t = owns (c : Thread nD τ) (ms2_1 t) fullShare ((dat2 V c).after 1 t) from by
      unfold Dat.leavesExact; rw [liveAt2_1 t], after2_1,
    show (dat2 V c).leavesExact 2 t = owns (c : Thread nD τ) (ms2_2 t) fullShare ((dat2 V c).after 2 t) from by
      unfold Dat.leavesExact; rw [liveAt2_2 t], after2_2]
  by_cases h1 : t.val % 4 = 3
  · have h0 : ¬t.val % 4 = 0 := by omega
    rw [show (dat2 V c).leavesExact 3 t = owns (c : Thread nD τ) (ms2_3 t) fullShare ((dat2 V c).after 3 t) from by
        unfold Dat.leavesExact; rw [liveAt2_3 t h1], after2_3,
      outsAt2_C V c t h0 h1, PhiS2_pos V c _ _ (by omega)]
    unfold rb2; (try dsimp only)
    iintro ⟨⟨HS0, Hr, Hg⟩, Ho, ⟨%d0, H0⟩, ⟨%d1, H1⟩, ⟨%d2, H2⟩, ⟨%d3, H3⟩⟩
    iapply ((runC2 V c t h0 h1 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0]
      · unfold owns; iexists _; isplitr
        swap; · iexact HS0
        ipureintro; exact View.read_writes_of_cover _ _ _ _ _ (scover2_C_0 c _ _ _ _ _ _ _ _ _ _ _ _ _ _ _ _ _)
      isplitl [Hr]; · iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _)
  · rw [Dat.leavesExact_idle (dat2 V c) 3 t (idleAt2_3 t h1).1 (idleAt2_3 t h1).2]
    by_cases h0 : t.val % 4 = 0
    · rw [outsAt2_A V c t h0 h1]
      unfold rb2; (try dsimp only)
      iintro ⟨HΦ, Ho, ⟨%d0, H0⟩, ⟨%d1, H1⟩, ⟨%d2, H2⟩, ⟨%d3, H3⟩⟩
      ihave HΦ' := (PhiS2_weak V c _ _) $$ HΦ
      icases HΦ' with ⟨HS0, Hr, Hg⟩
      iapply ((runA2 V c t h0 h1).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover2_A_0 c _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      iexists _; iexact H3
    · rw [outsAt2_B V c t h0 h1, PhiS2_pos V c _ _ (by omega)]
      unfold rb2; (try dsimp only)
      iintro ⟨⟨HS0, Hr, Hg⟩, Ho, ⟨%d0, H0⟩, ⟨%d1, H1⟩, ⟨%d2, H2⟩, ⟨%d3, H3⟩⟩
      iapply ((runB2 V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover2_B_0 c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

theorem hout2 (c : Dev nD) : (dat2 V c).Φ (Fin.last cfg2.N) ⊢ Pipeline.ΦA spec2 c :=
  (PhiS2_weak V c (Fin.last cfg2.N).val (Nat.le_of_lt_succ (Fin.last cfg2.N).isLt)).trans (Idealize.SL.BI.BIBase.Entails.of_eq (PhiA2_eq c).symm)

end Cert.Kernel.Hand

end
-- ==== Proof.Kernel.Run.lean ====
import proofs.«423997_j8272107012808_3_alg».proof.Defs
import proofs.«423997_j8272107012808_3_alg».proof.Proof.Gen.Pre_finite_inputs
import proofs.«423997_j8272107012808_3_alg».proof.Proof.Kernel.Reg0
import proofs.«423997_j8272107012808_3_alg».proof.Proof.Kernel.Reg1
import proofs.«423997_j8272107012808_3_alg».proof.Proof.Kernel.Reg2
import proofs.«423997_j8272107012808_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev U1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b

abbrev W3 : Dev nD → Valuation τ sig (Elt F) := fun c => StableHlo.after hostOps1 (W2 m c)
abbrev U3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b

abbrev W5 : Dev nD → Valuation τ sig (Elt F) := fun c => StableHlo.after hostOps2 (W4 m c)
abbrev U5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b

abbrev W7 : Dev nD → Valuation τ sig (Elt F) := fun c => StableHlo.after hostOps3 (W6 m c)

/-- No host operation writes `r` and it is no product's array. -/
abbrev Untouched (r : Ref sig .tc) : Prop :=
  r ∉ hostOps0_W ∧ r ∉ hostOps1_W ∧ r ∉ hostOps2_W ∧ r ∉ hostOps3_W
    ∧ (∀ w, Pipeline.arrRef spec0 w ≠ r) ∧ (∀ w, Pipeline.arrRef spec1 w ≠ r) ∧ (∀ w, Pipeline.arrRef spec2 w ≠ r)

/-- Such a buffer ends as launched. -/
theorem W7_of (c : Dev nD) (r : Ref sig .tc) (hr : Untouched r) : W7 m c (Proc.devRef .tc r) = m ((c : Thread nD τ).loc r) :=
  calc W7 m c (Proc.devRef .tc r)
    _ = W6 m c (Proc.devRef .tc r) := StableHlo.after_of_writes_sub hostOps3 _ hostOps3_writes hr.2.2.2.1
    _ = W5 m c (Proc.devRef .tc r) := W6_of_ne m c r hr.2.2.2.2.2.2
    _ = W4 m c (Proc.devRef .tc r) := StableHlo.after_of_writes_sub hostOps2 _ hostOps2_writes hr.2.2.1
    _ = W3 m c (Proc.devRef .tc r) := W4_of_ne m c r hr.2.2.2.2.2.1
    _ = W2 m c (Proc.devRef .tc r) := StableHlo.after_of_writes_sub hostOps1 _ hostOps1_writes hr.2.1
    _ = W1 m c (Proc.devRef .tc r) := W2_of_ne m c r hr.2.2.2.2.1
    _ = W0 m c (Proc.devRef .tc r) := StableHlo.after_of_writes_sub hostOps0 _ hostOps0_writes hr.1
    _ = m ((c : Thread nD τ).loc r) := rfl

abbrev adm' : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

abbrev asU (W : Dev nD → Valuation τ sig (Elt F)) : (c : Dev nD) → (b : Ref sig .tc) → Buf (Elt F) ((c : Thread nD τ).loc b) := fun c b => W c b

set_option backward.isDefEq.respectTransparency.types false in
/-- Any of the three products as a segment of @main, between the buffer contents `Wpre` and `Wpost`. -/
def regOf (p : Fin 3) (launch : Pipeline.LaunchFacts (nD := nD) (τ := τ) cfgs p) (Wpre Wpost : Dev nD → Valuation τ sig (Elt F))
    (hbody : ∀ c, BodyObligation (pdats m p c) (defs₀ (F := F)) 𝒱₀ () Set.univ)
    (hq : ∀ c w, (pdats m p c).q w = fullShare) (howed : ∀ c t, (pdats m p c).owed t = 0) (hrec : ∀ c t, (pdats m p c).recorded t = Set.univ)
    (hA : ∀ c w, (pdats m p c).A w = asU Wpre c (Pipeline.arrRef (pcfgs (F := F) p).spec w))
    (hin : ∀ c, Pipeline.ΦA (pcfgs (F := F) p).spec c ⊢ (pdats m p c).Φ 0)
    (hout : ∀ c, (pdats m p c).Φ (Fin.last (Pipeline.pin (pcfgs (F := F)) adm' p).N) ⊢ Pipeline.ΦA (pcfgs (F := F) p).spec c)
    (harr : ∀ c w, Wpost c (Proc.devRef .tc (Pipeline.arrRef (pcfgs (F := F) p).spec w)) = (pdats m p c).arrAt w (Pipeline.pin (pcfgs (F := F)) adm' p).N)
    (hne : ∀ c (b : Ref sig .tc), (∀ w, Pipeline.arrRef (pcfgs (F := F) p).spec w ≠ b) → Wpost c (Proc.devRef .tc b) = Wpre c (Proc.devRef .tc b)) :
    Pipeline.RegionSeg (pcfgs (F := F)) adm' (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (asU Wpre c)
  hentry c := by
    rw [Pipeline.ownSems0_none]
    have hsplit := Pipeline.arrays_of_unscopedBufs (p := p) (pcfgs (F := F)) adm' (pdats m) launch.win launch.arr_whole c
      ((pdats m p c).share_full (hq c)) (asU Wpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c 0]; trivial)
      iexact HO
    isplitl [Hp]; · iexact Hp
    iexact Hrest
  hin c := by
    have h : iprop((∃ r, prngReg c r) ∗ Pipeline.prefHeld (pcfgs (F := F) p).pre c (fun _ => fullShare) (adm' (F := F) p).1 ∗ Pipeline.scopedRest (Ix := Unit) (Name := ℕ) (U := UR sig nD τ) (Lvl := ℕ) (Val := Elt F) (pcfgs (F := F) p).spec c)
        ⊢ (Pipeline.ΦA (pcfgs (F := F) p).spec c : sProp 𝕄) := by
      unfold Pipeline.ΦA
      iintro ⟨Hp, -, Hr⟩
      isplitl [Hr]; · iexact Hr
      iexact Hp
    exact h.trans (hin c)
  hout c := by
    rw [Pipeline.ownSems0_none]
    have h : (Pipeline.ΦA (pcfgs (F := F) p).spec c : sProp 𝕄)
        ⊢ iprop((∃ r, prngReg c r) ∗ BI.emp ∗ Pipeline.scopedRest (Ix := Unit) (Name := ℕ) (U := UR sig nD τ) (Lvl := ℕ) (Val := Elt F) (pcfgs (F := F) p).spec c) := by
      unfold Pipeline.ΦA
      iintro ⟨Hr, Hp⟩
      isplitl [Hp]; · iexact Hp
      isplitr; · iempintro
      iexact Hr
    exact (hout c).trans h
  hexit c := by
    have hjoin := Pipeline.unscopedBufs_of_arrays (p := p) (pcfgs (F := F)) adm' (Ix := Unit) (Name := ℕ) (U := UR sig nD τ) (Lvl := ℕ)
      launch.win launch.arr_whole c (pdats m) ((pdats m p c).share_full (hq c))
      (asU Wpre c) (asU Wpost c) ((pdats m p c).arrAt · (Pipeline.pin (pcfgs (F := F)) adm' p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev segs : List (Pipeline.Seg (pcfgs (F := F)) adm' (pdats m) () defs₀ 𝒱₀ L lv) :=
  [ .host (hseg hostOps0 hostOps0_sub hostOps0_fresh (W0 m)),
    .region (regOf m 0 launch0 (W1 m) (W2 m) (body_obligation0 (U1 m)) (fun _ _ => rfl) (fun _ _ => rfl) (fun _ _ => rfl) (A_eq0 (U1 m)) (hin0 (U1 m)) (hout0 (U1 m)) (W2_arr m) (W2_of_ne m)),
    .host (hseg hostOps1 hostOps1_sub hostOps1_fresh (W2 m)),
    .region (regOf m 1 launch1 (W3 m) (W4 m) (body_obligation1 (U3 m)) (fun _ _ => rfl) (fun _ _ => rfl) (fun _ _ => rfl) (A_eq1 (U3 m)) (hin1 (U3 m)) (hout1 (U3 m)) (W4_arr m) (W4_of_ne m)),
    .host (hseg hostOps2 hostOps2_sub hostOps2_fresh (W4 m)),
    .region (regOf m 2 launch2 (W5 m) (W6 m) (body_obligation2 (U5 m)) (fun _ _ => rfl) (fun _ _ => rfl) (fun _ _ => rfl) (A_eq2 (U5 m)) (hin2 (U5 m)) (hout2 (U5 m)) (W6_arr m) (W6_of_ne m)),
    .host (hseg hostOps3 hostOps3_sub hostOps3_fresh (W6 m)) ]
theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m c) ∗ R c)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

attribute [local instance] Cert.Kernel.Gen.facts Cert.Pre_finite_inputs.Gen.facts in
theorem frame : Cert.frame_Kernel := fun m ρ _ =>
  (θ_run defs _ _).mono (fun r h c => ⟨(h c _ (mem_uc main_arg0 (by decide))).trans (W7_of m c main_arg0 (by decide)),
    (h c _ (mem_uc main_arg1 (by decide))).trans (W7_of m c main_arg1 (by decide)),
    (h c _ (mem_uc main_arg2 (by decide))).trans (W7_of m c main_arg2 (by decide)),
    (h c _ (mem_uc main_arg3 (by decide))).trans (W7_of m c main_arg3 (by decide)),
    (h c _ (mem_uc main_arg4 (by decide))).trans (W7_of m c main_arg4 (by decide)),
    (h c _ (mem_uc main_arg5 (by decide))).trans (W7_of m c main_arg5 (by decide)),
    (h c _ (mem_uc main_arg6 (by decide))).trans (W7_of m c main_arg6 (by decide)),
    (h c _ (mem_uc main_arg7 (by decide))).trans (W7_of m c main_arg7 (by decide)),
    (h c _ (mem_uc main_arg8 (by decide))).trans (W7_of m c main_arg8 (by decide))⟩) (run_main m ρ)

end Cert.Kernel.Hand

end
-- ==== Proof.KernelIdeal.Reg0Runs.lean ====
import proofs.«423997_j8272107012808_3_alg».proof.Proof.Gen.KernelIdeal.Launch
import proofs.«423997_j8272107012808_3_alg».proof.Proof.Gen.KernelIdeal.Skeleton
import proofs.«423997_j8272107012808_3_alg».proof.Proof.Gen.KernelIdeal.Points
import proofs.«423997_j8272107012808_3_alg».proof.Proof.LibOwns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (owns_back)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬t.val % 4 = 3 → cfg0.idle 3 (grid0.coords t) = true ∧ (cfg0.win 3).flush t = false := by decide +kernel
theorem idleAt0_4 : ∀ t : Fin cfg0.N, ¬t.val % 4 = 3 → cfg0.idle 4 (grid0.coords t) = true ∧ (cfg0.win 4).flush t = false := by decide +kernel
theorem liveAt0_3 : ∀ t : Fin cfg0.N, t.val % 4 = 3 → cfg0.idle 3 (grid0.coords t) = false := by decide +kernel
theorem liveAt0_4 : ∀ t : Fin cfg0.N, t.val % 4 = 3 → cfg0.idle 4 (grid0.coords t) = false := by decide +kernel

abbrev VO0_3 : View sig .tc .vmem S2048x64 .f32 := (Memref.whole cc0_stg3_0 : Memref sig .tc .vmem S2048x64 .f32).view
abbrev VO0_4 : View sig .tc .vmem S2048x64 .f32 := (Memref.whole cc0_stg4_0 : Memref sig .tc .vmem S2048x64 .f32).view
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x64 .f32 := win0_4.stage (cfg0.slots t 4)
abbrev hs0_4 (t : Fin cfg0.N) : (ms0_4 t).IsWhole := hstage0_4 ((cfg0.slots t 4).cast nbuf0_4)
abbrev scM0_0 : Memref sig .tc .vmem S2048x128 .f32 := Memref.whole cc0_scratch0
abbrev VS0_0 : View sig .tc .vmem S2048x128 .f32 := scM0_0.view

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d)) ∗ rest0 c ∗ (∃ r, prngReg c r)) := by
  unfold Pipeline.ΦA
  rw [Pipeline.scopedRest_split_of_list spec0 c [cc0_scratch0] (by decide) (by decide)]
  simp only [scM0_0, owns_whole]
  exact Idealize.SL.BI.Entails.antisymm Idealize.SL.BI.sep_assoc Idealize.SL.BI.sep_assoc'

section
variable (c : Dev nD) (i : grid0.Coords) (arg2 : Memref sig .tc .vmem S2048x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x128 .f32) (harg7 : arg7.IsWhole)

section
variable (hc0 : cond0_0 i) (hc1 : ¬cond0_1 i) (x0 : Vec F S2048x1024 .bf16) (x1 : Vec F S1024x128 .bf16) (x2 : Vec F S1x128 .f32)
set_option maxHeartbeats 1000000 in
/-- The body's run at the first step of a row's sum. -/
noncomputable def kernelRun0_A :
    Σ' (L3 : List (View.Piece (Elt F) S2048x64 .f32)) (L4 : List (View.Piece (Elt F) S2048x64 .f32)), { LS0 : List (View.Piece (Elt F) S2048x128 .f32) //
      ∀ (xi3 : Vec F S2048x64 .f32) (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kv_matmul_kernel i arg2 harg2 arg3 harg3 arg4 harg4 arg5 harg5 arg6 harg6 arg7 harg7) K } := by
  refine ⟨[], [], ?_, fun xi3 xi4 E K => ?run⟩
  case run =>
    simp only [cc0__kv_matmul_kernel_eq_skeleton]; unfold cc0__kv_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]; · iapply owns_back c _ harg2; iexact H0
    isplitl [H1]; · iapply owns_back c _ harg3; iexact H1
    isplitl [H2]; · iapply owns_back c _ harg4; iexact H2
    isplitl [H3]; · iapply owns_back c _ harg5; iexact H3
    isplitl [H4]; · iapply owns_back c _ harg6; iexact H4
    iexists _; iexact HS0
end

section
variable (hc0 : ¬cond0_0 i) (hc1 : ¬cond0_1 i) (x0 : Vec F S2048x1024 .bf16) (x1 : Vec F S1024x128 .bf16) (x2 : Vec F S1x128 .f32) (xs0 : Vec F S2048x128 .f32)
set_option maxHeartbeats 1000000 in
/-- The body's run at a middle step. -/
noncomputable def kernelRun0_B :
    Σ' (L3 : List (View.Piece (Elt F) S2048x64 .f32)) (L4 : List (View.Piece (Elt F) S2048x64 .f32)), { LS0 : List (View.Piece (Elt F) S2048x128 .f32) //
      ∀ (xi3 : Vec F S2048x64 .f32) (xi4 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kv_matmul_kernel i arg2 harg2 arg3 harg3 arg4 harg4 arg5 harg5 arg6 harg6 arg7 harg7) K } := by
  refine ⟨[], [], ?_, fun xi3 xi4 E K => ?run⟩
  case run =>
    simp only [cc0__kv_matmul_kernel_eq_skeleton]; unfold cc0__kv_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]; · iapply owns_back c _ harg2; iexact H0
    isplitl [H1]; · iapply owns_back c _ harg3; iexact H1
    isplitl [H2]; · iapply owns_back c _ harg4; iexact H2
    isplitl [H3]; · iapply owns_back c _ harg5; iexact H3
    isplitl [H4]; · iapply owns_back c _ harg6; iexact H4
    iexists _; iexact HS0
end

section
variable (hc0 : ¬cond0_0 i) (hc1 : cond0_1 i) (x0 : Vec F S2048x1024 .bf16) (x1 : Vec F S1024x128 .bf16) (x2 : Vec F S1x128 .f32) (xs0 : Vec F S2048x128 .f32)
set_option maxHeartbeats 1000000 in
/-- The body's run at the last step. -/
noncomputable def kernelRun0_C :
    Σ' (L3 : List (View.Piece (Elt F) S2048x64 .f32)) (L4 : List (View.Piece (Elt F) S2048x64 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kv_matmul_kernel i arg2 harg2 arg3 harg3 arg4 harg4 arg5 harg5 arg6 harg6 arg7 harg7) K } := by
  refine ⟨?_, ?_, ?_, fun E K => ?run⟩
  case run =>
    simp only [cc0__kv_matmul_kernel_eq_skeleton]; unfold cc0__kv_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg7.eq_unread hfs0
    sl_exec (disch := first | exact hc0 | exact hc1)
    sl_step
    iapply Hk
    isplitl [H0]; · iapply owns_back c _ harg2; iexact H0
    isplitl [H1]; · iapply owns_back c _ harg3; iexact H1
    isplitl [H2]; · iapply owns_back c _ harg4; iexact H2
    isplitl [H3]; · iexists _; iexact H3
    isplitl [H4]; · iexists _; iexact H4
    iexists _; iexact HS0
end

end

end Cert.KernelIdeal.Hand

end
-- ==== Proof.KernelIdeal.Reg0.lean ====
import proofs.«423997_j8272107012808_3_alg».proof.Proof.KernelIdeal.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (i : grid0.Coords) (arg2 : Memref sig .tc .vmem S2048x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x128 .f32) (harg7 : arg7.IsWhole)

section
variable (hc0 : cond0_0 i) (hc1 : ¬cond0_1 i) (x0 : Vec F S2048x1024 .bf16) (x1 : Vec F S1024x128 .bf16) (x2 : Vec F S1x128 .f32)
theorem scover0_A_0 (y : S2048x128.Idx) : ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x128.size (by sl_kernel_rfl) y
end

section
variable (hc0 : ¬cond0_0 i) (hc1 : ¬cond0_1 i) (x0 : Vec F S2048x1024 .bf16) (x1 : Vec F S1024x128 .bf16) (x2 : Vec F S1x128 .f32) (xs0 : Vec F S2048x128 .f32)
theorem scover0_B_0 (y : S2048x128.Idx) : ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S2048x128.size (by sl_kernel_rfl) y
end

section
variable (hc0 : ¬cond0_0 i) (hc1 : cond0_1 i) (x0 : Vec F S2048x1024 .bf16) (x1 : Vec F S1024x128 .bf16) (x2 : Vec F S1x128 .f32) (xs0 : Vec F S2048x128 .f32)
theorem cover0_C_3 (y : S2048x64.Idx) : ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S2048x64.size (by sl_kernel_rfl) y
theorem cover0_C_4 (y : S2048x64.Idx) : ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S2048x64.size (by sl_kernel_rfl) y
theorem scover0_C_0 (y : S2048x128.Idx) : ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S2048x128.size (by sl_kernel_rfl) y
end

end

/-- A run's piece lists read back over junk: the output blocks, then the accumulator. -/
def rb0 {P : List (View.Piece (Elt F) S2048x64 .f32) → List (View.Piece (Elt F) S2048x64 .f32) → List (View.Piece (Elt F) S2048x128 .f32) → Prop}
    (r : Σ' (L3 : List (View.Piece (Elt F) S2048x64 .f32)) (L4 : List (View.Piece (Elt F) S2048x64 .f32)), { LS0 : List (View.Piece (Elt F) S2048x128 .f32) // P L3 L4 LS0 }) : Vec F S2048x64 .f32 × Vec F S2048x64 .f32 × Vec F S2048x128 .f32 :=
  (VO0_3.read (Elt F) (VO0_3.writes (Elt F) VO0_3.junk r.1), VO0_4.read (Elt F) (VO0_4.writes (Elt F) VO0_4.junk r.2.1), VS0_0.read (Elt F) (VS0_0.writes (Elt F) VS0_0.junk r.2.2.1))

/-- The body's run at point `t`, by the step of the row's sum the point is. -/
def runA0 (c : Dev nD) (t : Fin cfg0.N) (h0 : t.val % 4 = 0) (h1 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t)
def runB0 (c : Dev nD) (t : Fin cfg0.N) (h0 : ¬t.val % 4 = 0) (h1 : ¬t.val % 4 = 3) (xs0 : Vec F S2048x128 .f32) :=
  kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) xs0
def runC0 (c : Dev nD) (t : Fin cfg0.N) (h0 : ¬t.val % 4 = 0) (h1 : t.val % 4 = 3) (xs0 : Vec F S2048x128 .f32) :=
  kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) xs0

/-- What the output blocks and the accumulator hold after the body at position `n`: the accumulator is carried from one point to the next. -/
def outsAt0 (c : Dev nD) : (n : ℕ) → n < cfg0.N → Vec F S2048x64 .f32 × Vec F S2048x64 .f32 × Vec F S2048x128 .f32
  | 0, hn => rb0 (runA0 V c ⟨0, hn⟩ (Nat.zero_mod _) (by show ¬0 % 4 = 3; decide))
  | n + 1, hn =>
    if h0 : (n + 1) % 4 = 0 then
      rb0 (runA0 V c ⟨n + 1, hn⟩ h0 (by show ¬(n + 1) % 4 = 3; omega))
    else if h1 : (n + 1) % 4 = 3 then
      rb0 (runC0 V c ⟨n + 1, hn⟩ h0 h1 (outsAt0 c n (Nat.lt_of_succ_lt hn)).2.2)
    else
      rb0 (runB0 V c ⟨n + 1, hn⟩ h0 h1 (outsAt0 c n (Nat.lt_of_succ_lt hn)).2.2)

theorem outsAt0_A (c : Dev nD) (t : Fin cfg0.N) (h0 : t.val % 4 = 0) (h1 : ¬t.val % 4 = 3) :
    outsAt0 V c t.val t.isLt = rb0 (runA0 V c t h0 h1) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = rb0 (runB0 V c t h0 h1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = rb0 (runC0 V c t h0 h1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ rest0 c ∗ (∃ r, prngReg c r))

theorem PhiS0_succ (c : Dev nD) (n : ℕ) (hn : n < cfg0.N) :
    PhiS0 V c (n + 1) hn = iprop(iprop(owns (c : Thread nD τ) scM0_0 fullShare ((outsAt0 V c n hn).2.2)) ∗ rest0 c ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2)) ∗ rest0 c ∗ (∃ r, prngReg c r)) := by
  cases n with
  | zero => exact absurd rfl hz
  | succ n => rfl

/-- Before any point the invariant gives the accumulator at some contents, beside what the body never touches. -/
theorem PhiS0_weak (c : Dev nD) (n : ℕ) (h : n ≤ cfg0.N) :
    PhiS0 V c n h ⊢ iprop(iprop((∃ d, owns (c : Thread nD τ) scM0_0 fullShare d)) ∗ rest0 c ∗ (∃ r, prngReg c r)) := by
  cases n with
  | zero => exact Idealize.SL.BI.BIBase.Entails.of_eq (PhiA0_eq c)
  | succ n =>
    rw [PhiS0_succ V c n h]
    iintro ⟨HS0, Hr⟩
    isplitl [HS0]; · iexists _; iexact HS0
    iexact Hr

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0 V c]; unfold Dat.blockOf iblk0; rw [A_eq0 V c]; try rfl) t d).trans
    (by unfold Dat.fetched Dat.blockOf iblk0; rw [A_eq0 V c]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1 V c]; unfold Dat.blockOf iblk0; rw [A_eq0 V c]; try rfl) t d).trans
    (by unfold Dat.fetched Dat.blockOf iblk0; rw [A_eq0 V c]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2 V c]; unfold Dat.blockOf iblk0; rw [A_eq0 V c]; try rfl) t d).trans
    (by unfold Dat.fetched Dat.blockOf iblk0; rw [A_eq0 V c]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiS0 V c (t.val + 1) t.isLt from rfl, PhiS0_succ, PhiS0_castSucc V c t,
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    show (dat0 V c).leavesExact 2 t = owns (c : Thread nD τ) (ms0_2 t) fullShare ((dat0 V c).after 2 t) from by
      unfold Dat.leavesExact; rw [liveAt0_2 t], after0_2]
  by_cases h1 : t.val % 4 = 3
  · have h0 : ¬t.val % 4 = 0 := by omega
    rw [show (dat0 V c).leavesExact 3 t = owns (c : Thread nD τ) (ms0_3 t) fullShare ((dat0 V c).after 3 t) from by
        unfold Dat.leavesExact; rw [liveAt0_3 t h1], after0_3,
      show (dat0 V c).leavesExact 4 t = owns (c : Thread nD τ) (ms0_4 t) fullShare ((dat0 V c).after 4 t) from by
        unfold Dat.leavesExact; rw [liveAt0_4 t h1], after0_4,
      outsAt0_C V c t h0 h1, PhiS0_pos V c _ _ (by omega)]
    unfold rb0; (try dsimp only)
    iintro ⟨⟨HS0, Hr, Hg⟩, Ho, ⟨%d0, H0⟩, ⟨%d1, H1⟩, ⟨%d2, H2⟩, ⟨%d3, H3⟩, ⟨%d4, H4⟩⟩
    iapply ((runC0 V c t h0 h1 _).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 Hr Hg]
    · isplitl [HS0]
      · unfold owns; iexists _; isplitr
        swap; · iexact HS0
        ipureintro; exact View.read_writes_of_cover _ _ _ _ _ (scover0_C_0 c _ _ _ _ _ _ _ _ _ _ _ _ _ _ _ _ _ _ _)
      isplitl [Hr]; · iexact Hr
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _)
    unfold owns; iexists _; isplitr
    swap; · iexact H4
    ipureintro; exact View.read_writes_of_cover _ _ _ _ _ (cover0_C_4 c _ _ _ _ _ _ _ _ _ _ _ _ _ _ _ _ _ _ _)
  · rw [Dat.leavesExact_idle (dat0 V c) 3 t (idleAt0_3 t h1).1 (idleAt0_3 t h1).2,
      Dat.leavesExact_idle (dat0 V c) 4 t (idleAt0_4 t h1).1 (idleAt0_4 t h1).2]
    by_cases h0 : t.val % 4 = 0
    · rw [outsAt0_A V c t h0 h1]
      unfold rb0; (try dsimp only)
      iintro ⟨HΦ, Ho, ⟨%d0, H0⟩, ⟨%d1, H1⟩, ⟨%d2, H2⟩, ⟨%d3, H3⟩, ⟨%d4, H4⟩⟩
      ihave HΦ' := (PhiS0_weak V c _ _) $$ HΦ
      icases HΦ' with ⟨HS0, Hr, Hg⟩
      iapply ((runA0 V c t h0 h1).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4
    · rw [outsAt0_B V c t h0 h1, PhiS0_pos V c _ _ (by omega)]
      unfold rb0; (try dsimp only)
      iintro ⟨⟨HS0, Hr, Hg⟩, Ho, ⟨%d0, H0⟩, ⟨%d1, H1⟩, ⟨%d2, H2⟩, ⟨%d3, H3⟩, ⟨%d4, H4⟩⟩
      iapply ((runB0 V c t h0 h1 _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0]
        · unfold owns; iexists _; isplitr
          swap; · iexact HS0
          ipureintro; exact View.read_writes_of_cover _ _ _ _ _ (scover0_B_0 c _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _

theorem hout0 (c : Dev nD) : (dat0 V c).Φ (Fin.last cfg0.N) ⊢ Pipeline.ΦA spec0 c :=
  (PhiS0_weak V c (Fin.last cfg0.N).val (Nat.le_of_lt_succ (Fin.last cfg0.N).isLt)).trans (Idealize.SL.BI.BIBase.Entails.of_eq (PhiA0_eq c).symm)

end Cert.KernelIdeal.Hand

end
-- ==== Proof.KernelIdeal.Reg1Runs.lean ====
import proofs.«423997_j8272107012808_3_alg».proof.Proof.Gen.KernelIdeal.Launch
import proofs.«423997_j8272107012808_3_alg».proof.Proof.Gen.KernelIdeal.Skeleton
import proofs.«423997_j8272107012808_3_alg».proof.Proof.Gen.KernelIdeal.Points
import proofs.«423997_j8272107012808_3_alg».proof.Proof.LibOwns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (owns_back)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem idleAt1_5 : ∀ t : Fin cfg1.N, ¬t.val % 4 = 3 → cfg1.idle 5 (grid1.coords t) = true ∧ (cfg1.win 5).flush t = false := by decide +kernel
theorem liveAt1_5 : ∀ t : Fin cfg1.N, t.val % 4 = 3 → cfg1.idle 5 (grid1.coords t) = false := by decide +kernel

abbrev VO1_5 : View sig .tc .vmem S1024x512 .bf16 := (Memref.whole cc1_stg5_0 : Memref sig .tc .vmem S1024x512 .bf16).view

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)

abbrev scM1_0 : Memref sig .tc .vmem S1024x512 .f32 := Memref.whole cc1_scratch0

abbrev VS1_0 : View sig .tc .vmem S1024x512 .f32 := scM1_0.view

def rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop((∃ d, owns (c : Thread nD τ) scM1_0 fullShare d) ∗ rest1 c ∗ (∃ r, prngReg c r)) := by
  unfold Pipeline.ΦA rest1
  rw [Pipeline.scopedRest_split_of_list spec1 c [cc1_scratch0] (by decide) (by decide)]
  simp only [bigSepL_singleton, scM1_0, owns_whole]
  exact BI.equiv_iff.mp ⟨Idealize.SL.BI.sep_assoc, Idealize.SL.BI.sep_assoc'⟩

section
variable (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x512 .bf16) (harg8 : arg8.IsWhole) (arg9 : Memref sig .tc .vmem S1024x512 .f32) (harg9 : arg9.IsWhole)

section
variable (hc0 : cond1_0 i) (hc1 : ¬cond1_1 i) (x0 : Vec F S1024x1024 .bf16) (x1 : Vec F S1024x512 .bf16) (x2 : Vec F S1x512 .f32) (x3 : Vec F S1024x64 .f32) (x4 : Vec F S1024x64 .f32)
set_option maxHeartbeats 1000000 in
noncomputable def kernelRun1_A :
    Σ' (L5 : List (View.Piece (Elt F) S1024x512 .bf16)), { LS0 : List (View.Piece (Elt F) S1024x512 .f32) //
      ∀ (xi5 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    isplitl [H4]; · iapply owns_back c _ harg7; iexact H4
    isplitl [H5]; · iapply owns_back c _ harg8; iexact H5
    iexists _; iexact HS0
end

section
variable (hc0 : ¬cond1_0 i) (hc1 : ¬cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
set_option maxHeartbeats 1000000 in
noncomputable def kernelRun1_B :
    Σ' (L5 : List (View.Piece (Elt F) S1024x512 .bf16)), { LS0 : List (View.Piece (Elt F) S1024x512 .f32) //
      ∀ (xi5 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    isplitl [H4]; · iapply owns_back c _ harg7; iexact H4
    isplitl [H5]; · iapply owns_back c _ harg8; iexact H5
    iexists _; iexact HS0
end

section
variable (hc0 : ¬cond1_0 i) (hc1 : cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
set_option maxHeartbeats 1000000 in
noncomputable def kernelRun1_C :
    Σ' (L5 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    isplitl [H4]; · iapply owns_back c _ harg7; iexact H4
    isplitl [H5]; · iexists _; iexact H5
    iexists _; iexact HS0
end

end

end Cert.KernelIdeal.Hand

end
-- ==== Proof.KernelIdeal.Reg1.lean ====
import proofs.«423997_j8272107012808_3_alg».proof.Proof.KernelIdeal.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x512 .bf16) (harg8 : arg8.IsWhole) (arg9 : Memref sig .tc .vmem S1024x512 .f32) (harg9 : arg9.IsWhole)

section
variable (hc0 : cond1_0 i) (hc1 : ¬cond1_1 i) (x0 : Vec F S1024x1024 .bf16) (x1 : Vec F S1024x512 .bf16) (x2 : Vec F S1x512 .f32) (x3 : Vec F S1024x64 .f32) (x4 : Vec F S1024x64 .f32)
theorem scover1_A_0 (y : S1024x512.Idx) : ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1024x512.size (by sl_kernel_rfl) y
end

section
variable (hc0 : ¬cond1_0 i) (hc1 : ¬cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
theorem scover1_B_0 (y : S1024x512.Idx) : ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1024x512.size (by sl_kernel_rfl) y
end

section
variable (hc0 : ¬cond1_0 i) (hc1 : cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
theorem cover1_C_5 (y : S1024x512.Idx) : ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x512.size (by sl_kernel_rfl) y
theorem scover1_C_0 (y : S1024x512.Idx) : ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x512.size (by sl_kernel_rfl) y
end

end

/-- A run's piece lists read back over junk: the output block, then the accumulator. -/
def rb1 {P : List (View.Piece (Elt F) S1024x512 .bf16) → List (View.Piece (Elt F) S1024x512 .f32) → Prop}
    (r : Σ' (L5 : List (View.Piece (Elt F) S1024x512 .bf16)), { LS0 : List (View.Piece (Elt F) S1024x512 .f32) // P L5 LS0 }) : Vec F S1024x512 .bf16 × Vec F S1024x512 .f32 :=
  (VO1_5.read (Elt F) (VO1_5.writes (Elt F) VO1_5.junk r.1), VS1_0.read (Elt F) (VS1_0.writes (Elt F) VS1_0.junk r.2.1))

/-- The body's run at point `t`, by the step of the row's sum the point is. -/
def runA1 (c : Dev nD) (t : Fin cfg1.N) (h0 : t.val % 4 = 0) (h1 : ¬t.val % 4 = 3) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
def runB1 (c : Dev nD) (t : Fin cfg1.N) (h0 : ¬t.val % 4 = 0) (h1 : ¬t.val % 4 = 3) (xs0 : Vec F S1024x512 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0
def runC1 (c : Dev nD) (t : Fin cfg1.N) (h0 : ¬t.val % 4 = 0) (h1 : t.val % 4 = 3) (xs0 : Vec F S1024x512 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0

/-- What the output block and the accumulator hold after the body at position `n`: the accumulator is carried from one point to the next. -/
def outsAt1 (c : Dev nD) : (n : ℕ) → n < cfg1.N → Vec F S1024x512 .bf16 × Vec F S1024x512 .f32
  | 0, hn => rb1 (runA1 V c ⟨0, hn⟩ (Nat.zero_mod _) (by show ¬0 % 4 = 3; decide))
  | n + 1, hn =>
    if h0 : (n + 1) % 4 = 0 then
      rb1 (runA1 V c ⟨n + 1, hn⟩ h0 (by show ¬(n + 1) % 4 = 3; omega))
    else if h1 : (n + 1) % 4 = 3 then
      rb1 (runC1 V c ⟨n + 1, hn⟩ h0 h1 (outsAt1 c n (Nat.lt_of_succ_lt hn)).2)
    else
      rb1 (runB1 V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = rb1 (runA1 V c t h0 h1) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = rb1 (runB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = rb1 (runC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ rest1 c ∗ (∃ r, prngReg c r))

theorem PhiS1_succ (c : Dev nD) (n : ℕ) (hn : n < cfg1.N) :
    PhiS1 V c (n + 1) hn = iprop(owns (c : Thread nD τ) scM1_0 fullShare ((outsAt1 V c n hn).2) ∗ rest1 c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ rest1 c ∗ (∃ r, prngReg c r)) := by
  cases n with
  | zero => exact absurd rfl hz
  | succ n => rfl

/-- Before any point the invariant gives the accumulator at some contents, beside what the body never touches. -/
theorem PhiS1_weak (c : Dev nD) (n : ℕ) (h : n ≤ cfg1.N) :
    PhiS1 V c n h ⊢ iprop((∃ d, owns (c : Thread nD τ) scM1_0 fullShare d) ∗ rest1 c ∗ (∃ r, prngReg c r)) := by
  cases n with
  | zero => exact Idealize.SL.BI.BIBase.Entails.of_eq (PhiA1_eq c)
  | succ n =>
    rw [PhiS1_succ V c n h]
    iintro ⟨HS0, Hr⟩
    isplitl [HS0]; · iexists _; iexact HS0
    iexact Hr

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0 V c]; unfold Dat.blockOf iblk1; rw [A_eq1 V c]; try rfl) t d).trans
    (by unfold Dat.fetched Dat.blockOf iblk1; rw [A_eq1 V c]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1 V c]; unfold Dat.blockOf iblk1; rw [A_eq1 V c]; try rfl) t d).trans
    (by unfold Dat.fetched Dat.blockOf iblk1; rw [A_eq1 V c]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2 V c]; unfold Dat.blockOf iblk1; rw [A_eq1 V c]; try rfl) t d).trans
    (by unfold Dat.fetched Dat.blockOf iblk1; rw [A_eq1 V c]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3 V c]; unfold Dat.blockOf iblk1; rw [A_eq1 V c]; try rfl) t d).trans
    (by unfold Dat.fetched Dat.blockOf iblk1; rw [A_eq1 V c]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4 V c]; unfold Dat.blockOf iblk1; rw [A_eq1 V c]; try rfl) t d).trans
    (by unfold Dat.fetched Dat.blockOf iblk1; rw [A_eq1 V c]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    show (dat1 V c).Φ t.succ = PhiS1 V c (t.val + 1) t.isLt from rfl, PhiS1_succ, PhiS1_castSucc V c t,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  by_cases h1 : t.val % 4 = 3
  · have h0 : ¬t.val % 4 = 0 := by omega
    rw [show (dat1 V c).leavesExact 5 t = owns (c : Thread nD τ) (ms1_5 t) fullShare ((dat1 V c).after 5 t) from by
        unfold Dat.leavesExact; rw [liveAt1_5 t h1], after1_5,
      outsAt1_C V c t h0 h1, PhiS1_pos V c _ _ (by omega)]
    unfold rb1; (try dsimp only)
    iintro ⟨⟨HS0, Hr, Hg⟩, Ho, ⟨%d0, H0⟩, ⟨%d1, H1⟩, ⟨%d2, H2⟩, ⟨%d3, H3⟩, ⟨%d4, H4⟩, ⟨%d5, H5⟩⟩
    iapply ((runC1 V c t h0 h1 _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hr Hg]
    · isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _)
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_C_5 c _ _ _ _ _ _ _ _ _ _ _ _ _ _ _ _ _ _ _ _ _ _ _)
  · rw [Dat.leavesExact_idle (dat1 V c) 5 t (idleAt1_5 t h1).1 (idleAt1_5 t h1).2]
    by_cases h0 : t.val % 4 = 0
    · rw [outsAt1_A V c t h0 h1]
      unfold rb1; (try dsimp only)
      iintro ⟨HΦ, Ho, ⟨%d0, H0⟩, ⟨%d1, H1⟩, ⟨%d2, H2⟩, ⟨%d3, H3⟩, ⟨%d4, H4⟩, ⟨%d5, H5⟩⟩
      ihave HΦ' := (PhiS1_weak V c _ _) $$ HΦ
      icases HΦ' with ⟨HS0, Hr, Hg⟩
      iapply ((runA1 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [outsAt1_B V c t h0 h1, PhiS1_pos V c _ _ (by omega)]
      unfold rb1; (try dsimp only)
      iintro ⟨⟨HS0, Hr, Hg⟩, Ho, ⟨%d0, H0⟩, ⟨%d1, H1⟩, ⟨%d2, H2⟩, ⟨%d3, H3⟩, ⟨%d4, H4⟩, ⟨%d5, H5⟩⟩
      iapply ((runB1 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c :=
  (PhiS1_weak V c (Fin.last cfg1.N).val (Nat.le_of_lt_succ (Fin.last cfg1.N).isLt)).trans (Idealize.SL.BI.BIBase.Entails.of_eq (PhiA1_eq c).symm)

end Cert.KernelIdeal.Hand

end
-- ==== Proof.KernelIdeal.Reg2Runs.lean ====
import proofs.«423997_j8272107012808_3_alg».proof.Proof.Gen.KernelIdeal.Launch
import proofs.«423997_j8272107012808_3_alg».proof.Proof.Gen.KernelIdeal.Skeleton
import proofs.«423997_j8272107012808_3_alg».proof.Proof.Gen.KernelIdeal.Points
import proofs.«423997_j8272107012808_3_alg».proof.Proof.LibOwns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (owns_back)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 2).val) 0#32)) 0#32) = 1#1

theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1

theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem idleAt2_3 : ∀ t : Fin cfg2.N, ¬t.val % 4 = 3 → cfg2.idle 3 (grid2.coords t) = true ∧ (cfg2.win 3).flush t = false := by decide +kernel
theorem liveAt2_3 : ∀ t : Fin cfg2.N, t.val % 4 = 3 → cfg2.idle 3 (grid2.coords t) = false := by decide +kernel

abbrev VO2_3 : View sig .tc .vmem S1024x1024 .f32 := (Memref.whole cc2_stg3_0 : Memref sig .tc .vmem S1024x1024 .f32).view

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)

abbrev scM2_0 : Memref sig .tc .vmem S1024x1024 .f32 := Memref.whole cc2_scratch0

abbrev VS2_0 : View sig .tc .vmem S1024x1024 .f32 := scM2_0.view

def rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop((∃ d, owns (c : Thread nD τ) scM2_0 fullShare d) ∗ rest2 (F := F) c ∗ (∃ r, prngReg c r)) := by
  unfold Pipeline.ΦA rest2
  rw [Pipeline.scopedRest_split_of_list spec2 c [cc2_scratch0] (by decide) (by decide)]
  simp only [bigSepL_singleton, scM2_0, owns_whole]
  exact BI.equiv_iff.mp ⟨BI.sep_assoc, BI.sep_assoc'⟩

section
variable (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)

section
variable (hc0 : cond2_0 i) (hc1 : ¬cond2_1 i) (x0 : Vec F S1024x1024 .bf16) (x1 : Vec F S1024x1024 .bf16) (x2 : Vec F S1x1024 .f32)
set_option maxHeartbeats 1000000 in
noncomputable def kernelRun2_A :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    iexists _; iexact HS0
end

section
variable (hc0 : ¬cond2_0 i) (hc1 : ¬cond2_1 i) (x0 : Vec F S1024x1024 .bf16) (x1 : Vec F S1024x1024 .bf16) (x2 : Vec F S1x1024 .f32) (xs0 : Vec F S1024x1024 .f32)
set_option maxHeartbeats 1000000 in
noncomputable def kernelRun2_B :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iapply owns_back c _ harg6; iexact H3
    iexists _; iexact HS0
end

section
variable (hc0 : ¬cond2_0 i) (hc1 : cond2_1 i) (x0 : Vec F S1024x1024 .bf16) (x1 : Vec F S1024x1024 .bf16) (x2 : Vec F S1x1024 .f32) (xs0 : Vec F S1024x1024 .f32)
set_option maxHeartbeats 1000000 in
noncomputable def kernelRun2_C :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]; · iapply owns_back c _ harg3; iexact H0
    isplitl [H1]; · iapply owns_back c _ harg4; iexact H1
    isplitl [H2]; · iapply owns_back c _ harg5; iexact H2
    isplitl [H3]; · iexists _; iexact H3
    iexists _; iexact HS0
end

end

end Cert.KernelIdeal.Hand

end
-- ==== Proof.KernelIdeal.Reg2.lean ====
import proofs.«423997_j8272107012808_3_alg».proof.Proof.KernelIdeal.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)

section
variable (hc0 : cond2_0 i) (hc1 : ¬cond2_1 i) (x0 : Vec F S1024x1024 .bf16) (x1 : Vec F S1024x1024 .bf16) (x2 : Vec F S1x1024 .f32)
theorem scover2_A_0 (y : S1024x1024.Idx) : ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y
end

section
variable (hc0 : ¬cond2_0 i) (hc1 : ¬cond2_1 i) (x0 : Vec F S1024x1024 .bf16) (x1 : Vec F S1024x1024 .bf16) (x2 : Vec F S1x1024 .f32) (xs0 : Vec F S1024x1024 .f32)
theorem scover2_B_0 (y : S1024x1024.Idx) : ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y
end

section
variable (hc0 : ¬cond2_0 i) (hc1 : cond2_1 i) (x0 : Vec F S1024x1024 .bf16) (x1 : Vec F S1024x1024 .bf16) (x2 : Vec F S1x1024 .f32) (xs0 : Vec F S1024x1024 .f32)
theorem cover2_C_3 (y : S1024x1024.Idx) : ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y
theorem scover2_C_0 (y : S1024x1024.Idx) : ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y
end

end

/-- A run's piece lists read back over junk: the output block, then the accumulator. -/
def rb2 {P : List (View.Piece (Elt F) S1024x1024 .f32) → List (View.Piece (Elt F) S1024x1024 .f32) → Prop}
    (r : Σ' (L3 : List (View.Piece (Elt F) S1024x1024 .f32)), { LS0 : List (View.Piece (Elt F) S1024x1024 .f32) // P L3 LS0 }) : Vec F S1024x1024 .f32 × Vec F S1024x1024 .f32 :=
  (VO2_3.read (Elt F) (VO2_3.writes (Elt F) VO2_3.junk r.1), VS2_0.read (Elt F) (VS2_0.writes (Elt F) VS2_0.junk r.2.1))

/-- The body's run at point `t`, by the step of the row's sum the point is. -/
def runA2 (c : Dev nD) (t : Fin cfg2.N) (h0 : t.val % 4 = 0) (h1 : ¬t.val % 4 = 3) :=
  kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)
def runB2 (c : Dev nD) (t : Fin cfg2.N) (h0 : ¬t.val % 4 = 0) (h1 : ¬t.val % 4 = 3) (xs0 : Vec F S1024x1024 .f32) :=
  kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) xs0
def runC2 (c : Dev nD) (t : Fin cfg2.N) (h0 : ¬t.val % 4 = 0) (h1 : t.val % 4 = 3) (xs0 : Vec F S1024x1024 .f32) :=
  kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) xs0

/-- What the output block and the accumulator hold after the body at position `n`: the accumulator is carried from one point to the next. -/
def outsAt2 (c : Dev nD) : (n : ℕ) → n < cfg2.N → Vec F S1024x1024 .f32 × Vec F S1024x1024 .f32
  | 0, hn => rb2 (runA2 V c ⟨0, hn⟩ (Nat.zero_mod _) (by show ¬0 % 4 = 3; decide))
  | n + 1, hn =>
    if h0 : (n + 1) % 4 = 0 then
      rb2 (runA2 V c ⟨n + 1, hn⟩ h0 (by show ¬(n + 1) % 4 = 3; omega))
    else if h1 : (n + 1) % 4 = 3 then
      rb2 (runC2 V c ⟨n + 1, hn⟩ h0 h1 (outsAt2 c n (Nat.lt_of_succ_lt hn)).2)
    else
      rb2 (runB2 V c ⟨n + 1, hn⟩ h0 h1 (outsAt2 c n (Nat.lt_of_succ_lt hn)).2)

theorem outsAt2_A (c : Dev nD) (t : Fin cfg2.N) (h0 : t.val % 4 = 0) (h1 : ¬t.val % 4 = 3) :
    outsAt2 V c t.val t.isLt = rb2 (runA2 V c t h0 h1) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = rb2 (runB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = rb2 (runC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS2 (c : Dev nD) : (n : ℕ) → n ≤ cfg2.N → sProp 𝕄
  | 0, _ => Pipeline.ΦA spec2 c
  | n + 1, hn => iprop(owns (c : Thread nD τ) scM2_0 fullShare ((outsAt2 V c n hn).2) ∗ rest2 (F := F) c ∗ (∃ r, prngReg c r))

theorem PhiS2_succ (c : Dev nD) (n : ℕ) (hn : n < cfg2.N) :
    PhiS2 V c (n + 1) hn = iprop(owns (c : Thread nD τ) scM2_0 fullShare ((outsAt2 V c n hn).2) ∗ rest2 (F := F) c ∗ (∃ r, prngReg c r)) := rfl

theorem PhiS2_pos (c : Dev nD) (n : ℕ) (h : n ≤ cfg2.N) (hz : n ≠ 0) :
    PhiS2 V c n h = iprop(owns (c : Thread nD τ) scM2_0 fullShare ((outsAt2 V c (n - 1) (by omega)).2) ∗ rest2 (F := F) c ∗ (∃ r, prngReg c r)) := by
  cases n with
  | zero => exact absurd rfl hz
  | succ n => rfl

/-- Before any point the invariant gives the accumulator at some contents, beside what the body never touches. -/
theorem PhiS2_weak (c : Dev nD) (n : ℕ) (h : n ≤ cfg2.N) :
    PhiS2 V c n h ⊢ iprop((∃ d, owns (c : Thread nD τ) scM2_0 fullShare d) ∗ rest2 (F := F) c ∗ (∃ r, prngReg c r)) := by
  cases n with
  | zero => exact Idealize.SL.BI.BIBase.Entails.of_eq (PhiA2_eq c)
  | succ n =>
    rw [PhiS2_succ V c n h]
    iintro ⟨HS0, Hr⟩
    isplitl [HS0]; · iexists _; iexact HS0
    iexact Hr

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0 V c]; unfold Dat.blockOf iblk2; rw [A_eq2 V c]; try rfl) t d).trans
    (by unfold Dat.fetched Dat.blockOf iblk2; rw [A_eq2 V c]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1 V c]; unfold Dat.blockOf iblk2; rw [A_eq2 V c]; try rfl) t d).trans
    (by unfold Dat.fetched Dat.blockOf iblk2; rw [A_eq2 V c]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2 V c]; unfold Dat.blockOf iblk2; rw [A_eq2 V c]; try rfl) t d).trans
    (by unfold Dat.fetched Dat.blockOf iblk2; rw [A_eq2 V c]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS2 V c (t.val + 1) t.isLt from rfl, PhiS2_succ, PhiS2_castSucc V c t,
    show (dat2 V c).leavesExact 0 t = owns (c : Thread nD τ) (ms2_0 t) fullShare ((dat2 V c).after 0 t) from by
      unfold Dat.leavesExact; rw [liveAt2_0 t], after2_0,
    show (dat2 V c).leavesExact 1 t = owns (c : Thread nD τ) (ms2_1 t) fullShare ((dat2 V c).after 1 t) from by
      unfold Dat.leavesExact; rw [liveAt2_1 t], after2_1,
    show (dat2 V c).leavesExact 2 t = owns (c : Thread nD τ) (ms2_2 t) fullShare ((dat2 V c).after 2 t) from by
      unfold Dat.leavesExact; rw [liveAt2_2 t], after2_2]
  by_cases h1 : t.val % 4 = 3
  · have h0 : ¬t.val % 4 = 0 := by omega
    rw [show (dat2 V c).leavesExact 3 t = owns (c : Thread nD τ) (ms2_3 t) fullShare ((dat2 V c).after 3 t) from by
        unfold Dat.leavesExact; rw [liveAt2_3 t h1], after2_3,
      outsAt2_C V c t h0 h1, PhiS2_pos V c _ _ (by omega)]
    unfold rb2; (try dsimp only)
    iintro ⟨⟨HS0, Hr, Hg⟩, Ho, ⟨%d0, H0⟩, ⟨%d1, H1⟩, ⟨%d2, H2⟩, ⟨%d3, H3⟩⟩
    iapply ((runC2 V c t h0 h1 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0]
      · unfold owns; iexists _; isplitr
        swap; · iexact HS0
        ipureintro; exact View.read_writes_of_cover _ _ _ _ _ (scover2_C_0 c _ _ _ _ _ _ _ _ _ _ _ _ _ _ _ _ _)
      isplitl [Hr]; · iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _)
  · rw [Dat.leavesExact_idle (dat2 V c) 3 t (idleAt2_3 t h1).1 (idleAt2_3 t h1).2]
    by_cases h0 : t.val % 4 = 0
    · rw [outsAt2_A V c t h0 h1]
      unfold rb2; (try dsimp only)
      iintro ⟨HΦ, Ho, ⟨%d0, H0⟩, ⟨%d1, H1⟩, ⟨%d2, H2⟩, ⟨%d3, H3⟩⟩
      ihave HΦ' := (PhiS2_weak V c _ _) $$ HΦ
      icases HΦ' with ⟨HS0, Hr, Hg⟩
      iapply ((runA2 V c t h0 h1).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover2_A_0 c _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      iexists _; iexact H3
    · rw [outsAt2_B V c t h0 h1, PhiS2_pos V c _ _ (by omega)]
      unfold rb2; (try dsimp only)
      iintro ⟨⟨HS0, Hr, Hg⟩, Ho, ⟨%d0, H0⟩, ⟨%d1, H1⟩, ⟨%d2, H2⟩, ⟨%d3, H3⟩⟩
      iapply ((runB2 V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover2_B_0 c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

theorem hout2 (c : Dev nD) : (dat2 V c).Φ (Fin.last cfg2.N) ⊢ Pipeline.ΦA spec2 c :=
  (PhiS2_weak V c (Fin.last cfg2.N).val (Nat.le_of_lt_succ (Fin.last cfg2.N).isLt)).trans (Idealize.SL.BI.BIBase.Entails.of_eq (PhiA2_eq c).symm)

end Cert.KernelIdeal.Hand

end
-- ==== Proof.KernelIdeal.Run.lean ====
import proofs.«423997_j8272107012808_3_alg».proof.Defs
import proofs.«423997_j8272107012808_3_alg».proof.Proof.Gen.Pre_finite_inputs
import proofs.«423997_j8272107012808_3_alg».proof.Proof.KernelIdeal.Reg0
import proofs.«423997_j8272107012808_3_alg».proof.Proof.KernelIdeal.Reg1
import proofs.«423997_j8272107012808_3_alg».proof.Proof.KernelIdeal.Reg2
import proofs.«423997_j8272107012808_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev U1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b

abbrev W3 : Dev nD → Valuation τ sig (Elt F) := fun c => StableHlo.after hostOps1 (W2 m c)
abbrev U3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b

abbrev W5 : Dev nD → Valuation τ sig (Elt F) := fun c => StableHlo.after hostOps2 (W4 m c)
abbrev U5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b

abbrev W7 : Dev nD → Valuation τ sig (Elt F) := fun c => StableHlo.after hostOps3 (W6 m c)

/-- No host operation writes `r` and it is no product's array. -/
abbrev Untouched (r : Ref sig .tc) : Prop :=
  r ∉ hostOps0_W ∧ r ∉ hostOps1_W ∧ r ∉ hostOps2_W ∧ r ∉ hostOps3_W
    ∧ (∀ w, Pipeline.arrRef spec0 w ≠ r) ∧ (∀ w, Pipeline.arrRef spec1 w ≠ r) ∧ (∀ w, Pipeline.arrRef spec2 w ≠ r)

/-- Such a buffer ends as launched. -/
theorem W7_of (c : Dev nD) (r : Ref sig .tc) (hr : Untouched r) : W7 m c (Proc.devRef .tc r) = m ((c : Thread nD τ).loc r) :=
  calc W7 m c (Proc.devRef .tc r)
    _ = W6 m c (Proc.devRef .tc r) := StableHlo.after_of_writes_sub hostOps3 _ hostOps3_writes hr.2.2.2.1
    _ = W5 m c (Proc.devRef .tc r) := W6_of_ne m c r hr.2.2.2.2.2.2
    _ = W4 m c (Proc.devRef .tc r) := StableHlo.after_of_writes_sub hostOps2 _ hostOps2_writes hr.2.2.1
    _ = W3 m c (Proc.devRef .tc r) := W4_of_ne m c r hr.2.2.2.2.2.1
    _ = W2 m c (Proc.devRef .tc r) := StableHlo.after_of_writes_sub hostOps1 _ hostOps1_writes hr.2.1
    _ = W1 m c (Proc.devRef .tc r) := W2_of_ne m c r hr.2.2.2.2.1
    _ = W0 m c (Proc.devRef .tc r) := StableHlo.after_of_writes_sub hostOps0 _ hostOps0_writes hr.1
    _ = m ((c : Thread nD τ).loc r) := rfl

abbrev adm' : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

abbrev asU (W : Dev nD → Valuation τ sig (Elt F)) : (c : Dev nD) → (b : Ref sig .tc) → Buf (Elt F) ((c : Thread nD τ).loc b) := fun c b => W c b

set_option backward.isDefEq.respectTransparency.types false in
/-- Any of the three products as a segment of @main, between the buffer contents `Wpre` and `Wpost`. -/
def regOf (p : Fin 3) (launch : Pipeline.LaunchFacts (nD := nD) (τ := τ) cfgs p) (Wpre Wpost : Dev nD → Valuation τ sig (Elt F))
    (hbody : ∀ c, BodyObligation (pdats m p c) (defs₀ (F := F)) 𝒱₀ () Set.univ)
    (hq : ∀ c w, (pdats m p c).q w = fullShare) (howed : ∀ c t, (pdats m p c).owed t = 0) (hrec : ∀ c t, (pdats m p c).recorded t = Set.univ)
    (hA : ∀ c w, (pdats m p c).A w = asU Wpre c (Pipeline.arrRef (pcfgs (F := F) p).spec w))
    (hin : ∀ c, Pipeline.ΦA (pcfgs (F := F) p).spec c ⊢ (pdats m p c).Φ 0)
    (hout : ∀ c, (pdats m p c).Φ (Fin.last (Pipeline.pin (pcfgs (F := F)) adm' p).N) ⊢ Pipeline.ΦA (pcfgs (F := F) p).spec c)
    (harr : ∀ c w, Wpost c (Proc.devRef .tc (Pipeline.arrRef (pcfgs (F := F) p).spec w)) = (pdats m p c).arrAt w (Pipeline.pin (pcfgs (F := F)) adm' p).N)
    (hne : ∀ c (b : Ref sig .tc), (∀ w, Pipeline.arrRef (pcfgs (F := F) p).spec w ≠ b) → Wpost c (Proc.devRef .tc b) = Wpre c (Proc.devRef .tc b)) :
    Pipeline.RegionSeg (pcfgs (F := F)) adm' (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (asU Wpre c)
  hentry c := by
    rw [Pipeline.ownSems0_none]
    have hsplit := Pipeline.arrays_of_unscopedBufs (p := p) (pcfgs (F := F)) adm' (pdats m) launch.win launch.arr_whole c
      ((pdats m p c).share_full (hq c)) (asU Wpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c 0]; trivial)
      iexact HO
    isplitl [Hp]; · iexact Hp
    iexact Hrest
  hin c := by
    have h : iprop((∃ r, prngReg c r) ∗ Pipeline.prefHeld (pcfgs (F := F) p).pre c (fun _ => fullShare) (adm' (F := F) p).1 ∗ Pipeline.scopedRest (Ix := Unit) (Name := ℕ) (U := UR sig nD τ) (Lvl := ℕ) (Val := Elt F) (pcfgs (F := F) p).spec c)
        ⊢ (Pipeline.ΦA (pcfgs (F := F) p).spec c : sProp 𝕄) := by
      unfold Pipeline.ΦA
      iintro ⟨Hp, -, Hr⟩
      isplitl [Hr]; · iexact Hr
      iexact Hp
    exact h.trans (hin c)
  hout c := by
    rw [Pipeline.ownSems0_none]
    have h : (Pipeline.ΦA (pcfgs (F := F) p).spec c : sProp 𝕄)
        ⊢ iprop((∃ r, prngReg c r) ∗ BI.emp ∗ Pipeline.scopedRest (Ix := Unit) (Name := ℕ) (U := UR sig nD τ) (Lvl := ℕ) (Val := Elt F) (pcfgs (F := F) p).spec c) := by
      unfold Pipeline.ΦA
      iintro ⟨Hr, Hp⟩
      isplitl [Hp]; · iexact Hp
      isplitr; · iempintro
      iexact Hr
    exact (hout c).trans h
  hexit c := by
    have hjoin := Pipeline.unscopedBufs_of_arrays (p := p) (pcfgs (F := F)) adm' (Ix := Unit) (Name := ℕ) (U := UR sig nD τ) (Lvl := ℕ)
      launch.win launch.arr_whole c (pdats m) ((pdats m p c).share_full (hq c))
      (asU Wpre c) (asU Wpost c) ((pdats m p c).arrAt · (Pipeline.pin (pcfgs (F := F)) adm' p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev segs : List (Pipeline.Seg (pcfgs (F := F)) adm' (pdats m) () defs₀ 𝒱₀ L lv) :=
  [ .host (hseg hostOps0 hostOps0_sub hostOps0_fresh (W0 m)),
    .region (regOf m 0 launch0 (W1 m) (W2 m) (body_obligation0 (U1 m)) (fun _ _ => rfl) (fun _ _ => rfl) (fun _ _ => rfl) (A_eq0 (U1 m)) (hin0 (U1 m)) (hout0 (U1 m)) (W2_arr m) (W2_of_ne m)),
    .host (hseg hostOps1 hostOps1_sub hostOps1_fresh (W2 m)),
    .region (regOf m 1 launch1 (W3 m) (W4 m) (body_obligation1 (U3 m)) (fun _ _ => rfl) (fun _ _ => rfl) (fun _ _ => rfl) (A_eq1 (U3 m)) (hin1 (U3 m)) (hout1 (U3 m)) (W4_arr m) (W4_of_ne m)),
    .host (hseg hostOps2 hostOps2_sub hostOps2_fresh (W4 m)),
    .region (regOf m 2 launch2 (W5 m) (W6 m) (body_obligation2 (U5 m)) (fun _ _ => rfl) (fun _ _ => rfl) (fun _ _ => rfl) (A_eq2 (U5 m)) (hin2 (U5 m)) (hout2 (U5 m)) (W6_arr m) (W6_of_ne m)),
    .host (hseg hostOps3 hostOps3_sub hostOps3_fresh (W6 m)) ]
theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m c) ∗ R c)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

attribute [local instance] Cert.KernelIdeal.Gen.facts Cert.Pre_finite_inputs.Gen.facts in
theorem frame : Cert.frame_KernelIdeal := fun m ρ _ =>
  (θ_run defs _ _).mono (fun r h c => ⟨(h c _ (mem_uc main_arg0 (by decide))).trans (W7_of m c main_arg0 (by decide)),
    (h c _ (mem_uc main_arg1 (by decide))).trans (W7_of m c main_arg1 (by decide)),
    (h c _ (mem_uc main_arg2 (by decide))).trans (W7_of m c main_arg2 (by decide)),
    (h c _ (mem_uc main_arg3 (by decide))).trans (W7_of m c main_arg3 (by decide)),
    (h c _ (mem_uc main_arg4 (by decide))).trans (W7_of m c main_arg4 (by decide)),
    (h c _ (mem_uc main_arg5 (by decide))).trans (W7_of m c main_arg5 (by decide)),
    (h c _ (mem_uc main_arg6 (by decide))).trans (W7_of m c main_arg6 (by decide)),
    (h c _ (mem_uc main_arg7 (by decide))).trans (W7_of m c main_arg7 (by decide)),
    (h c _ (mem_uc main_arg8 (by decide))).trans (W7_of m c main_arg8 (by decide))⟩) (run_main m ρ)

end Cert.KernelIdeal.Hand

end
-- ==== Proof.KernelIdeal.Val0Pieces.lean ====
import proofs.«423997_j8272107012808_3_alg».proof.Proof.KernelIdeal.Reg0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

theorem hz0 : (![0, 0] : Fin 2 → Nat) = fun _ => 0 := funext fun a => by fin_cases a <;> rfl

section
variable (c : Dev nD) (i : grid0.Coords) (arg2 : Memref sig .tc .vmem S2048x1024 .bf16) (harg2 : arg2.IsWhole) (arg3 : Memref sig .tc .vmem S1024x128 .bf16) (harg3 : arg3.IsWhole) (arg4 : Memref sig .tc .vmem S1x128 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x128 .f32) (harg7 : arg7.IsWhole)

section
variable (hc0 : cond0_0 i) (hc1 : ¬cond0_1 i) (x0 : Vec F S2048x1024 .bf16) (x1 : Vec F S1024x128 .bf16) (x2 : Vec F S1x128 .f32)
/-- First step: the accumulator is left at the block product added onto the zero block. -/
theorem sout0_A_eq : VS0_0.read (Elt F) (VS0_0.writes (Elt F) VS0_0.junk (kernelRun0_A c i arg2 harg2 arg3 harg3 arg4 harg4 arg5 harg5 arg6 harg6 arg7 harg7 hc0 hc1 x0 x1 x2).2.2.1) = k0_pay2 (k0_pay1 (F := F)) x0 x1 := by
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x128) hz0, View.readCov_unit_zero (S := S2048x128) _ hz0]
  simp only [View.readAt_eq_ld, harg2.read_unread, harg3.read_unread, harg4.read_unread, harg7.read_unread, View.ld_unit_zero (S := S2048x128) hz0, View.ld_unit_zero (S := S2048x1024) hz0, View.ld_unit_zero (S := S1024x128) hz0, View.ld_unit_zero (S := S1x128) hz0]
end

section
variable (hc0 : ¬cond0_0 i) (hc1 : ¬cond0_1 i) (x0 : Vec F S2048x1024 .bf16) (x1 : Vec F S1024x128 .bf16) (x2 : Vec F S1x128 .f32) (xs0 : Vec F S2048x128 .f32)
/-- Middle step: the block product added onto what the accumulator held. -/
theorem sout0_B_eq : VS0_0.read (Elt F) (VS0_0.writes (Elt F) VS0_0.junk (kernelRun0_B c i arg2 harg2 arg3 harg3 arg4 harg4 arg5 harg5 arg6 harg6 arg7 harg7 hc0 hc1 x0 x1 x2 xs0).2.2.1) = k0_pay2 xs0 x0 x1 := by
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero hz0]
  simp only [View.readAt_eq_ld, harg2.read_unread, harg3.read_unread, harg4.read_unread, harg7.read_unread, View.ld_unit_zero (S := S2048x128) hz0, View.ld_unit_zero (S := S2048x1024) hz0, View.ld_unit_zero (S := S1024x128) hz0, View.ld_unit_zero (S := S1x128) hz0]
end

section
variable (hc0 : ¬cond0_0 i) (hc1 : cond0_1 i) (x0 : Vec F S2048x1024 .bf16) (x1 : Vec F S1024x128 .bf16) (x2 : Vec F S1x128 .f32) (xs0 : Vec F S2048x128 .f32)
/-- Last step: the same for the accumulator; each output block is a column half of the new accumulator with the bias row added. -/
theorem sout0_C_eq : VS0_0.read (Elt F) (VS0_0.writes (Elt F) VS0_0.junk (kernelRun0_C c i arg2 harg2 arg3 harg3 arg4 harg4 arg5 harg5 arg6 harg6 arg7 harg7 hc0 hc1 x0 x1 x2 xs0).2.2.1) = k0_pay2 xs0 x0 x1 := by
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz0]
  simp only [View.readAt_eq_ld, harg2.read_unread, harg3.read_unread, harg4.read_unread, harg7.read_unread, View.ld_unit_zero (S := S2048x128) hz0, View.ld_unit_zero (S := S2048x1024) hz0, View.ld_unit_zero (S := S1024x128) hz0, View.ld_unit_zero (S := S1x128) hz0]

theorem out0_C_3_eq : VO0_3.read (Elt F) (VO0_3.writes (Elt F) VO0_3.junk (kernelRun0_C c i arg2 harg2 arg3 harg3 arg4 harg4 arg5 harg5 arg6 harg6 arg7 harg7 hc0 hc1 x0 x1 x2 xs0).1) = k0_pay4 (k0_pay2 xs0 x0 x1) x2 := by
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz0, View.readCov_unit_zero (S := S2048x128) _ hz0]
  simp only [View.readAt_eq_ld, harg2.read_unread, harg3.read_unread, harg4.read_unread, harg7.read_unread, View.ld_unit_zero (S := S2048x128) hz0, View.ld_unit_zero (S := S2048x1024) hz0, View.ld_unit_zero (S := S1024x128) hz0, View.ld_unit_zero (S := S1x128) hz0]

theorem out0_C_4_eq : VO0_4.read (Elt F) (VO0_4.writes (Elt F) VO0_4.junk (kernelRun0_C c i arg2 harg2 arg3 harg3 arg4 harg4 arg5 harg5 arg6 harg6 arg7 harg7 hc0 hc1 x0 x1 x2 xs0).2.1) = k0_pay5 (k0_pay2 xs0 x0 x1) x2 := by
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz0, View.readCov_unit_zero (S := S2048x128) _ hz0]
  simp only [View.readAt_eq_ld, harg2.read_unread, harg3.read_unread, harg4.read_unread, harg7.read_unread, View.ld_unit_zero (S := S2048x128) hz0, View.ld_unit_zero (S := S2048x1024) hz0, View.ld_unit_zero (S := S1024x128) hz0, View.ld_unit_zero (S := S1x128) hz0]
end

end

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr1 (n : Nat) := (⟨1, ![n]⟩ : Shape).Idx → EReal
abbrev Arr2 (m n : Nat) := (⟨2, ![m, n]⟩ : Shape).Idx → EReal
abbrev Arr3 (a b c : Nat) := (⟨3, ![a, b, c]⟩ : Shape).Idx → EReal

/-- The scale of the scores, one eighth, as a real. -/
def eighth : EReal := ((1 / 8 : ℝ) : EReal)

/-- The largest of 64 scores. -/
def rowmax (sc : Fin 64 → EReal) : EReal := (Finset.univ : Finset (Fin 64)).fold max (⊥ : EReal) sc

/-- Softmax over 64 scores, taken after subtracting the largest. -/
def smax (sc : Fin 64 → EReal) (h : Fin 64) : EReal :=
  Ideal.div (Ideal.exp (sc h - rowmax sc)) (∑ h' : Fin 64, Ideal.exp (sc h' - rowmax sc))

/-- Entry (r, n) of the matrix product X·W with the row b added. -/
def mmb {M K N : Nat} (X : Arr2 M K) (W : Arr2 K N) (b : Arr2 1 N) (r : Fin M) (n : Fin N) : EReal :=
  (∑ k : Fin K, X (ix2 r k) * W (ix2 k n)) + b (ix2 0 n)

/-- The key rows: columns 0 … 63 of the fused key/value projection. -/
def kOut (X : Arr2 16384 4096) (Wkv : Arr2 4096 128) (bkv : Arr2 1 128) : Arr2 16384 64 := fun i =>
  mmb X Wkv bkv ⟨(i 0).val, idx2_lt0 i⟩ ⟨(i 1).val, by have := idx2_lt1 i; omega⟩

/-- The value rows: columns 64 … 127 of it. -/
def vOut (X : Arr2 16384 4096) (Wkv : Arr2 4096 128) (bkv : Arr2 1 128) : Arr2 16384 64 := fun i =>
  mmb X Wkv bkv ⟨(i 0).val, idx2_lt0 i⟩ ⟨64 + (i 1).val, by have := idx2_lt1 i; omega⟩

/-- For each row and each group of 64 columns: the softmax, over the group, of query entry × key entry × 1/8, times the value entry. -/
def combOut (X : Arr2 16384 4096) (Wq : Arr2 4096 4096) (bq : Arr2 1 4096) (Kt Vv : Arr2 16384 64) : Arr2 16384 4096 := fun i =>
  smax (fun h => mmb X Wq bq ⟨(i 0).val, idx2_lt0 i⟩ ⟨((i 1).val / 64) * 64 + h.val, by have := idx2_lt1 i; have := h.isLt; omega⟩
      * Kt (ix2 ⟨(i 0).val, idx2_lt0 i⟩ h) * eighth)
    ⟨(i 1).val % 64, Nat.mod_lt _ (by decide)⟩
  * Vv (ix2 ⟨(i 0).val, idx2_lt0 i⟩ ⟨(i 1).val % 64, Nat.mod_lt _ (by decide)⟩)

/-- The output projection. -/
def fOut (O : Arr2 16384 4096) (Wo : Arr2 4096 4096) (bo : Arr2 1 4096) : Arr2 16384 4096 := fun i =>
  mmb O Wo bo ⟨(i 0).val, idx2_lt0 i⟩ ⟨(i 1).val, idx2_lt1 i⟩

/-- 256 sequences of 64 rows laid end to end as 16384 rows. -/
def rows (x : Arr3 256 64 4096) : Arr2 16384 4096 := fun i =>
  x (ix3 ⟨(i 0).val / 64, by have := idx2_lt0 i; omega⟩ ⟨(i 0).val % 64, Nat.mod_lt _ (by decide)⟩ ⟨(i 1).val, idx2_lt1 i⟩)

/-- The transpose. -/
def tr {m n : Nat} (W : Arr2 m n) : Arr2 n m := fun i => W (ix2 ⟨(i 1).val, idx2_lt1 i⟩ ⟨(i 0).val, idx2_lt0 i⟩)

/-- Two matrices of 64 columns side by side. -/
def sideBySide (A B : Arr2 4096 64) : Arr2 4096 128 := fun i =>
  if h : (i 1).val < 64 then A (ix2 ⟨(i 0).val, idx2_lt0 i⟩ ⟨(i 1).val, h⟩)
  else B (ix2 ⟨(i 0).val, idx2_lt0 i⟩ ⟨(i 1).val - 64, by have := idx2_lt1 i; omega⟩)

/-- Two vectors of 64 entries end to end, as one row. -/
def endToEnd (a b : Arr1 64) : Arr2 1 128 := fun i =>
  if h : (i 1).val < 64 then a (ix1 ⟨(i 1).val, h⟩) else b (ix1 ⟨(i 1).val - 64, by have := idx2_lt1 i; omega⟩)

/-- A vector as a matrix of one row. -/
def asRow {n : Nat} (a : Arr1 n) : Arr2 1 n := fun i => a (ix1 ⟨(i 1).val, idx2_lt1 i⟩)

/-- Each block of 64 rows (a 64 × 64 square) transposed in place. -/
def swapInBatch (K2 : Arr2 16384 64) : Arr2 16384 64 := fun i =>
  K2 (ix2 ⟨((i 0).val / 64) * 64 + (i 1).val, by have := idx2_lt0 i; have := idx2_lt1 i; omega⟩ ⟨(i 0).val % 64, Nat.mod_lt _ (by decide)⟩)

/-- The inverse of `rows`. -/
def unrows (Y : Arr2 16384 4096) : Arr3 256 64 4096 := fun i =>
  Y (ix2 ⟨(i 0).val * 64 + (i 1).val, by have h0 : (i 0).val < 256 := (i 0).isLt; have h1 : (i 1).val < 64 := (i 1).isLt; omega⟩ ⟨(i 2).val, (i 2).isLt⟩)

/-- The result as three matrix products over 16384-row matrices, with the re-layings between them. -/
def kernelVal (x : Arr3 256 64 4096) (Wq : Arr2 4096 4096) (bq : Arr1 4096) (Wk : Arr2 64 4096) (bk : Arr1 64)
    (Wv : Arr2 64 4096) (bv : Arr1 64) (Wo : Arr2 4096 4096) (bo : Arr1 4096) : Arr3 256 64 4096 :=
  unrows (fOut
    (combOut (rows x) (tr Wq) (asRow bq)
      (swapInBatch (kOut (rows x) (sideBySide (tr Wk) (tr Wv)) (endToEnd bk bv)))
      (vOut (rows x) (sideBySide (tr Wk) (tr Wv)) (endToEnd bk bv)))
    (tr Wo) (asRow bo))

/-- A projection x·Wᵀ + bias at sequence b, row s, column e. -/
def proj {N : Nat} (x : Arr3 256 64 4096) (W : Arr2 N 4096) (bias : Arr1 N) (b : Fin 256) (s : Fin 64) (e : Fin N) : EReal :=
  (∑ d : Fin 4096, x (ix3 b s d) * W (ix2 e d)) + bias (ix1 e)

/-- `combOut` over the three-axis arrays. -/
def comb (x : Arr3 256 64 4096) (Wq : Arr2 4096 4096) (bq : Arr1 4096) (Wk : Arr2 64 4096) (bk : Arr1 64)
    (Wv : Arr2 64 4096) (bv : Arr1 64) (b : Fin 256) (s : Fin 64) (d : Fin 4096) : EReal :=
  smax (fun h => proj x Wq bq b s ⟨(d.val / 64) * 64 + h.val, by have := d.isLt; have := h.isLt; omega⟩ * proj x Wk bk b h s * eighth)
    ⟨d.val % 64, Nat.mod_lt _ (by decide)⟩
  * proj x Wv bv b s ⟨d.val % 64, Nat.mod_lt _ (by decide)⟩

/-- The result as a composition over the three-axis arrays. -/
def refVal (x : Arr3 256 64 4096) (Wq : Arr2 4096 4096) (bq : Arr1 4096) (Wk : Arr2 64 4096) (bk : Arr1 64)
    (Wv : Arr2 64 4096) (bv : Arr1 64) (Wo : Arr2 4096 4096) (bo : Arr1 4096) : Arr3 256 64 4096 := fun i =>
  (∑ d : Fin 4096, comb x Wq bq Wk bk Wv bv ⟨(i 0).val, (i 0).isLt⟩ ⟨(i 1).val, (i 1).isLt⟩ d * Wo (ix2 ⟨(i 2).val, (i 2).isLt⟩ d))
    + bo (ix1 ⟨(i 2).val, (i 2).isLt⟩)

end Cert.Spec

end
-- ==== Proof.LibPlainDot.lean ====
import Idealize.ShloMosaic.PureOps.Ideal.Laws
import Idealize.ShloMosaic.Lib.ValueIdx

noncomputable section

namespace Cert.Lib.PlainDot

open Idealize.ShloMosaic Idealize.ShloMosaic.ValueIdx

variable (M K N : Nat)

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.KernelIdeal.Payloads.lean ====
import proofs.«423997_j8272107012808_3_alg».proof.Proof.Gen.KernelIdeal.Skeleton
import proofs.«423997_j8272107012808_3_alg».proof.Proof.Spec
import proofs.«423997_j8272107012808_3_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

theorem k0_pay1_apply (i : S2048x128.Idx) : k0_pay1 (F := Ideal) i = 0 := by
  unfold k0_pay1
  refine (congrFun (shapeCast_self _ _) i).trans ?_
  exact Ideal.ofBits_zero_f32

theorem k1_pay1_apply (i : S1024x512.Idx) : k1_pay1 (F := Ideal) i = 0 := by
  unfold k1_pay1
  refine (congrFun (shapeCast_self _ _) i).trans ?_
  exact Ideal.ofBits_zero_f32

theorem k2_pay1_apply (i : S1024x1024.Idx) : k2_pay1 (F := Ideal) i = 0 := by
  unfold k2_pay1
  refine (congrFun (shapeCast_self _ _) i).trans ?_
  exact Ideal.ofBits_zero_f32

theorem dot0_plain : dot_S2048x1024_S1024x128_S2048x128_1_0_0_1_n_n = DotDims.plain 2048 1024 128 := rfl
theorem dot1_plain : dot_S1024x1024_S1024x512_S1024x512_1_0_0_1_n_n = DotDims.plain 1024 1024 512 := rfl
theorem dot2_plain : dot_S1024x1024_S1024x1024_S1024x1024_1_0_0_1_n_n = DotDims.plain 1024 1024 1024 := rfl

theorem k0_pay2_apply (acc : Vec Ideal S2048x128 .f32) (x : Vec Ideal S2048x1024 .bf16) (w : Vec Ideal S1024x128 .bf16)
    (p : Fin 2048) (q : Fin 128) :
    k0_pay2 (F := Ideal) acc x w (ix2 p q) = acc (ix2 p q) + ∑ k : Fin 1024, x (ix2 p k) * w (ix2 k q) := by
  unfold k0_pay2
  refine (congrFun (shapeCast_self _ _) (ix2 p q)).trans ?_
  refine congrArg (acc (ix2 p q) + ·) ?_
  rw [shapeCast_self, shapeCast_self, dot0_plain]
  exact Cert.Lib.PlainDot.matmul_plain_zero_ix2 2048 1024 128 none x w p q

theorem k1_pay2_apply (acc : Vec Ideal S1024x512 .f32) (x : Vec Ideal S1024x1024 .bf16) (w : Vec Ideal S1024x512 .bf16)
    (p : Fin 1024) (q : Fin 512) :
    k1_pay2 (F := Ideal) acc x w (ix2 p q) = acc (ix2 p q) + ∑ k : Fin 1024, x (ix2 p k) * w (ix2 k q) := by
  unfold k1_pay2
  refine (congrFun (shapeCast_self _ _) (ix2 p q)).trans ?_
  refine congrArg (acc (ix2 p q) + ·) ?_
  rw [shapeCast_self, shapeCast_self, dot1_plain]
  exact Cert.Lib.PlainDot.matmul_plain_zero_ix2 1024 1024 512 none x w p q

theorem k2_pay2_apply (acc : Vec Ideal S1024x1024 .f32) (x w : Vec Ideal S1024x1024 .bf16) (p q : Fin 1024) :
    k2_pay2 (F := Ideal) acc x w (ix2 p q) = acc (ix2 p q) + ∑ k : Fin 1024, x (ix2 p k) * w (ix2 k q) := by
  unfold k2_pay2
  refine (congrFun (shapeCast_self _ _) (ix2 p q)).trans ?_
  refine congrArg (acc (ix2 p q) + ·) ?_
  rw [shapeCast_self, shapeCast_self, dot2_plain]
  exact Cert.Lib.PlainDot.matmul_plain_zero_ix2 1024 1024 1024 none x w p q

theorem k0_pay3_apply (acc : Vec Ideal S2048x128 .f32) (b : Vec Ideal S1x128 .f32) (p : Fin 2048) (c : Fin 128) :
    k0_pay3 (F := Ideal) acc b (ix2 p c) = acc (ix2 p c) + b (ix2 0 c) := by
  unfold k0_pay3
  refine congrArg (acc (ix2 p c) + ·) ?_
  refine (broadcastTo_1b_ab_apply _ _ p c).trans ?_
  exact congrFun (shapeCast_self b _) (ix2 0 c)

theorem k0_pay4_apply (acc : Vec Ideal S2048x128 .f32) (b : Vec Ideal S1x128 .f32) (p : Fin 2048) (q : Fin 64) :
    k0_pay4 (F := Ideal) acc b (ix2 p q)
      = acc (ix2 p (⟨q.val, by omega⟩ : Fin 128)) + b (ix2 0 (⟨q.val, by omega⟩ : Fin 128)) := by
  unfold k0_pay4
  refine (slice2_axis1_apply 0 _ _ p q (⟨q.val, by omega⟩ : Fin 128) (Nat.zero_add _).symm).trans ?_
  exact k0_pay3_apply acc b p _

theorem k0_pay5_apply (acc : Vec Ideal S2048x128 .f32) (b : Vec Ideal S1x128 .f32) (p : Fin 2048) (q : Fin 64) :
    k0_pay5 (F := Ideal) acc b (ix2 p q)
      = acc (ix2 p (⟨64 + q.val, by omega⟩ : Fin 128)) + b (ix2 0 (⟨64 + q.val, by omega⟩ : Fin 128)) := by
  unfold k0_pay5
  refine (slice2_axis1_apply 64 _ _ p q (⟨64 + q.val, by omega⟩ : Fin 128) rfl).trans ?_
  exact k0_pay3_apply acc b p _

theorem k2_pay3_apply (acc : Vec Ideal S1024x1024 .f32) (b : Vec Ideal S1x1024 .f32) (p q : Fin 1024) :
    k2_pay3 (F := Ideal) acc b (ix2 p q) = acc (ix2 p q) + b (ix2 0 q) := by
  unfold k2_pay3
  refine congrArg (acc (ix2 p q) + ·) ?_
  refine (broadcastTo_1b_ab_apply _ _ p q).trans ?_
  exact congrFun (shapeCast_self b _) (ix2 0 q)

section Layouts
variable {α : Type}

theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

theorem broadcastTo_a1c_abc_apply {a b c : ℕ} (v : (⟨3, ![a, 1, c]⟩ : Shape).Idx → α)
    (h : (⟨3, ![a, 1, c]⟩ : Shape).Broadcasts ⟨3, ![a, b, c]⟩) (i : Fin a) (g : Fin b) (j : Fin c) :
    broadcastTo ⟨3, ![a, b, c]⟩ v h (ix3 i g j) = v (ix3 i (0 : Fin 1) j) := by
  refine broadcastTo_apply v h (ix3 i g j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

theorem split_lanes_apply (x : S1024x512.Idx → α) (h : S1024x512.ShapeCasts S1024x8x64) (p : Fin 1024) (g : Fin 8) (l : Fin 64) :
    shapeCast S1024x8x64 x h (ix3 p g l)
      = x (ix2 p (⟨g.val * 64 + l.val, by have := g.isLt; have := l.isLt; omega⟩ : Fin 512)) :=
  shapeCast_apply x h _ _ (by
    rw [Shape.rowMajor_val_two, Shape.rowMajor_val_three]
    show p.val * 512 + (g.val * 64 + l.val) = (p.val * 8 + g.val) * 64 + l.val
    omega)

theorem merge_lanes_apply (x : S1024x8x64.Idx → α) (h : S1024x8x64.ShapeCasts S1024x512) (p : Fin 1024) (q : Fin 512) :
    shapeCast S1024x512 x h (ix2 p q)
      = x (ix3 p (⟨q.val / 64, by have := q.isLt; omega⟩ : Fin 8) (⟨q.val % 64, Nat.mod_lt _ (by decide)⟩ : Fin 64)) :=
  shapeCast_apply x h _ _ (by
    rw [Shape.rowMajor_val_three, Shape.rowMajor_val_two]
    show (p.val * 8 + q.val / 64) * 64 + q.val % 64 = p.val * 512 + q.val
    omega)

end Layouts

theorem ofBits_negInf : Ideal.ofBits .f32 0xFF800000#32 = (⊥ : EReal) := by
  simp [Ideal.ofBits, Ideal.ieee]

theorem ofBits_eighth : Ideal.ofBits .f32 0x3E000000#32 = Cert.Spec.eighth := by
  unfold Cert.Spec.eighth
  simp [Ideal.ofBits, Ideal.ieee, -EReal.coe_mul]; norm_num

theorem lift_lane (hr : S1024x8x64.Reduces [2] S1024x8) (p : Fin 1024) (g : Fin 8) (k : Fin (S1024x8x64.size 2)) :
    hr.lift (ix2 p g) k = ix3 p g (⟨k.val, k.isLt⟩ : Fin 64) := by
  funext c; apply Fin.ext
  fin_cases c <;> rfl

theorem lane_max_apply (z : FVec Ideal S1024x8x64 .f32) (p : Fin 1024) (g : Fin 8) :
    multiReduction .maximumf [2] S1024x8 z 0xFF800000#32 reduces_S1024x8x64_S1024x8 (.inl rfl) rfl (ix2 p g)
      = Cert.Spec.rowmax (fun l => z (ix3 p g l)) := by
  refine (Ideal.multiReduction_maximumf_single z 0xFF800000#32 reduces_S1024x8x64_S1024x8 (.inl rfl) rfl (ix2 p g)).trans ?_
  have hf : (z ∘ reduces_S1024x8x64_S1024x8.lift (ix2 p g)) = fun k : Fin 64 => z (ix3 p g k) :=
    funext fun k => congrArg z (lift_lane _ p g k)
  refine Eq.trans (congrArg (fun f => Finset.fold max (Ideal.ofBits .f32 0xFF800000#32) f (Finset.univ : Finset (Fin 64))) hf) ?_
  rw [ofBits_negInf]
  rfl

theorem lane_sum_apply (z : FVec Ideal S1024x8x64 .f32) (p : Fin 1024) (g : Fin 8) :
    multiReduction .add [2] S1024x8 z 0x00000000#32 reduces_S1024x8x64_S1024x8 (.inl rfl) rfl (ix2 p g)
      = ∑ l : Fin 64, z (ix3 p g l) := by
  refine (Ideal.multiReduction_add_single z 0x00000000#32 reduces_S1024x8x64_S1024x8 (.inl rfl) rfl (ix2 p g)).trans ?_
  exact Finset.sum_congr rfl fun k _ => congrArg z (lift_lane _ p g k)

def shifted (z : FVec Ideal S1024x8x64 .f32) : FVec Ideal S1024x8x64 .f32 :=
  exp (subf z (broadcastTo S1024x8x64 (shapeCast S1024x8x1
    (multiReduction .maximumf [2] S1024x8 z 0xFF800000#32 reduces_S1024x8x64_S1024x8 (.inl rfl) rfl)
    shapeCasts_S1024x8_S1024x8x1) broadcasts_S1024x8x1_S1024x8x64))

def soft (z : FVec Ideal S1024x8x64 .f32) : FVec Ideal S1024x8x64 .f32 :=
  divf (shifted z) (broadcastTo S1024x8x64 (shapeCast S1024x8x1
    (multiReduction .add [2] S1024x8 (shifted z) 0x00000000#32 reduces_S1024x8x64_S1024x8 (.inl rfl) rfl)
    shapeCasts_S1024x8_S1024x8x1) broadcasts_S1024x8x1_S1024x8x64)

def scaled (acc : Vec Ideal S1024x512 .f32) (b : Vec Ideal S1x512 .f32) (kt : Vec Ideal S1024x64 .f32) :
    FVec Ideal S1024x8x64 .f32 :=
  mulf (mulf
      (shapeCast S1024x8x64 (addf acc (broadcastTo S1024x512 (shapeCast S1x512 b shapeCasts_S1x512_S1x512)
        broadcasts_S1x512_S1024x512)) shapeCasts_S1024x512_S1024x8x64)
      (broadcastTo S1024x8x64 (shapeCast S1024x1x64 (shapeCast S1024x64 kt shapeCasts_S1024x64_S1024x64)
        shapeCasts_S1024x64_S1024x1x64) broadcasts_S1024x1x64_S1024x8x64))
    (broadcast S1024x8x64 (Scalar.ofBits .f32 0x3E000000#32))

def underGroups (v : Vec Ideal S1024x64 .f32) : FVec Ideal S1024x8x64 .f32 :=
  broadcastTo S1024x8x64 (shapeCast S1024x1x64 (shapeCast S1024x64 v shapeCasts_S1024x64_S1024x64)
    shapeCasts_S1024x64_S1024x1x64) broadcasts_S1024x1x64_S1024x8x64

theorem k1_pay3_eq (acc : Vec Ideal S1024x512 .f32) (b : Vec Ideal S1x512 .f32) (kt vv : Vec Ideal S1024x64 .f32) :
    k1_pay3 (F := Ideal) acc b kt vv
      = truncf .bf16 (shapeCast S1024x512 (mulf (soft (scaled acc b kt)) (underGroups vv)) shapeCasts_S1024x8x64_S1024x512)
          bitsLt_bf16_f32 := rfl

theorem underGroups_apply (v : Vec Ideal S1024x64 .f32) (p : Fin 1024) (g : Fin 8) (l : Fin 64) :
    underGroups v (ix3 p g l) = v (ix2 p l) := by
  unfold underGroups
  refine (broadcastTo_a1c_abc_apply _ _ p g l).trans ?_
  refine (shapeCast_ab_a1b_apply _ _ p 0 l).trans ?_
  exact congrFun (shapeCast_self v _) (ix2 p l)

theorem scaled_apply (acc : Vec Ideal S1024x512 .f32) (b : Vec Ideal S1x512 .f32) (kt : Vec Ideal S1024x64 .f32)
    (p : Fin 1024) (g : Fin 8) (l : Fin 64) :
    scaled acc b kt (ix3 p g l)
      = (acc (ix2 p (⟨g.val * 64 + l.val, by have := g.isLt; have := l.isLt; omega⟩ : Fin 512))
          + b (ix2 0 (⟨g.val * 64 + l.val, by have := g.isLt; have := l.isLt; omega⟩ : Fin 512)))
        * kt (ix2 p l) * Cert.Spec.eighth := by
  unfold scaled
  show (shapeCast S1024x8x64 _ _ (ix3 p g l) * (underGroups kt) (ix3 p g l)) * Ideal.ofBits .f32 0x3E000000#32 = _
  rw [ofBits_eighth, underGroups_apply]
  refine congrArg (fun m : EReal => m * kt (ix2 p l) * Cert.Spec.eighth) ?_
  refine (split_lanes_apply _ _ p g l).trans ?_
  refine congrArg (acc (ix2 p _) + ·) ?_
  refine (broadcastTo_1b_ab_apply _ _ p _).trans ?_
  exact congrFun (shapeCast_self b _) (ix2 0 _)

theorem shifted_apply (z : FVec Ideal S1024x8x64 .f32) (p : Fin 1024) (g : Fin 8) (l : Fin 64) :
    shifted z (ix3 p g l) = Ideal.exp (z (ix3 p g l) - Cert.Spec.rowmax (fun k => z (ix3 p g k))) := by
  unfold shifted
  refine congrArg (fun m : EReal => Ideal.exp (z (ix3 p g l) - m)) ?_
  refine (broadcastTo_ab1_abc_apply _ _ p g l).trans ?_
  refine (shapeCast_ab_ab1_apply _ _ p g 0).trans ?_
  exact lane_max_apply z p g

theorem soft_apply (z : FVec Ideal S1024x8x64 .f32) (p : Fin 1024) (g : Fin 8) (l : Fin 64) :
    soft z (ix3 p g l) = Cert.Spec.smax (fun k => z (ix3 p g k)) l := by
  unfold soft
  refine congrArg₂ Ideal.div (shifted_apply z p g l) ?_
  refine (broadcastTo_ab1_abc_apply _ _ p g l).trans ?_
  refine (shapeCast_ab_ab1_apply _ _ p g 0).trans ?_
  refine (lane_sum_apply _ p g).trans ?_
  exact Finset.sum_congr rfl fun k _ => shifted_apply z p g k

theorem k1_pay3_apply (acc : Vec Ideal S1024x512 .f32) (b : Vec Ideal S1x512 .f32) (kt vv : Vec Ideal S1024x64 .f32)
    (p : Fin 1024) (q : Fin 512) :
    k1_pay3 (F := Ideal) acc b kt vv (ix2 p q)
      = Cert.Spec.smax (fun h =>
            (acc (ix2 p ⟨(q.val / 64) * 64 + h.val, by have := q.isLt; have := h.isLt; omega⟩)
              + b (ix2 0 ⟨(q.val / 64) * 64 + h.val, by have := q.isLt; have := h.isLt; omega⟩))
            * kt (ix2 p h) * Cert.Spec.eighth)
          ⟨q.val % 64, Nat.mod_lt _ (by decide)⟩
        * vv (ix2 p ⟨q.val % 64, Nat.mod_lt _ (by decide)⟩) := by
  rw [k1_pay3_eq]
  refine (merge_lanes_apply (mulf (soft (scaled acc b kt)) (underGroups vv)) _ p q).trans ?_
  refine congrArg₂ (fun m n : EReal => m * n) ?_ (underGroups_apply vv p _ _)
  refine (soft_apply _ p _ _).trans ?_
  exact congrArg (fun f => Cert.Spec.smax f _) (funext fun k => scaled_apply acc b kt p _ k)

end Cert.KernelIdeal.Hand

end
-- ==== Proof.LibBlockSum.lean ====
import Mathlib.Algebra.BigOperators.Fin
import Mathlib.Algebra.BigOperators.Group.Finset.Basic

namespace Cert.Lib.BlockSum

open Finset

variable {M : Type*} [AddCommMonoid M]

/-- The sum of the first n terms. -/
def partialSum {N : Nat} (f : Fin N → M) (n : Nat) : M := ∑ k : Fin N, if k.val < n then f k else 0

def extendZero {N : Nat} (f : Fin N → M) (k : Nat) : M := if h : k < N then f ⟨k, h⟩ else 0

theorem extendZero_of_lt {N : Nat} (f : Fin N → M) (k : Nat) (h : k < N) : extendZero f k = f ⟨k, h⟩ := by
  simp [extendZero, h]

theorem partialSum_eq_sum_range {N : Nat} (f : Fin N → M) (n : Nat) (h : n ≤ N) :
    partialSum f n = ∑ k ∈ range n, extendZero f k := by
  unfold partialSum
  have e : ∀ k : Fin N, (if k.val < n then f k else 0) = (fun j : Nat => if j < n then extendZero f j else 0) k.val := by
    intro k
    simp [extendZero, k.isLt]
  rw [Finset.sum_congr rfl (fun k _ => e k), Fin.sum_univ_eq_sum_range (fun j => if j < n then extendZero f j else 0) N,
    ← Finset.sum_filter]
  congr 1
  ext j
  simp only [mem_filter, mem_range]
  omega

theorem partialSum_zero {N : Nat} (f : Fin N → M) : partialSum f 0 = 0 := by
  simp [partialSum]

/-- Adding the next block of B terms onto the first n gives the first n + B. -/
theorem partialSum_add_block {N : Nat} (f : Fin N → M) (n B : Nat) (h : n + B ≤ N) :
    partialSum f n + ∑ k : Fin B, f ⟨n + k.val, by have := k.isLt; omega⟩ = partialSum f (n + B) := by
  rw [partialSum_eq_sum_range f n (by omega), partialSum_eq_sum_range f (n + B) h, Finset.sum_range_add]
  congr 1
  rw [← Fin.sum_univ_eq_sum_range (fun j => extendZero f (n + j)) B]
  refine Finset.sum_congr rfl (fun k _ => ?_)
  exact (extendZero_of_lt f (n + k.val) (by have := k.isLt; omega)).symm

theorem partialSum_add_block_eq {N : Nat} (f : Fin N → M) (n B m : Nat) (h : n + B ≤ N) (hm : n + B = m) :
    partialSum f n + ∑ k : Fin B, f ⟨n + k.val, by have := k.isLt; omega⟩ = partialSum f m := by
  subst hm
  exact partialSum_add_block f n B h

theorem partialSum_full {N : Nat} (f : Fin N → M) : partialSum f N = ∑ k : Fin N, f k := by
  unfold partialSum
  refine Finset.sum_congr rfl (fun k _ => ?_)
  simp [k.isLt]

/-- A sum of 4·B terms is its four blocks of B added in turn. -/
theorem four_blocks {B : Nat} (f : Fin (4 * B) → M) :
    (((0 + ∑ k : Fin B, f ⟨k.val, by have := k.isLt; omega⟩)
        + ∑ k : Fin B, f ⟨B + k.val, by have := k.isLt; omega⟩)
        + ∑ k : Fin B, f ⟨2 * B + k.val, by have := k.isLt; omega⟩)
        + ∑ k : Fin B, f ⟨3 * B + k.val, by have := k.isLt; omega⟩
      = ∑ k : Fin (4 * B), f k := by
  have h1 : partialSum f B + ∑ k : Fin B, f ⟨B + k.val, by have := k.isLt; omega⟩ = partialSum f (2 * B) :=
    partialSum_add_block_eq f B B (2 * B) (by omega) (by omega)
  have h2 : partialSum f (2 * B) + ∑ k : Fin B, f ⟨2 * B + k.val, by have := k.isLt; omega⟩ = partialSum f (3 * B) :=
    partialSum_add_block_eq f (2 * B) B (3 * B) (by omega) (by omega)
  have h3 : partialSum f (3 * B) + ∑ k : Fin B, f ⟨3 * B + k.val, by have := k.isLt; omega⟩ = partialSum f (4 * B) :=
    partialSum_add_block_eq f (3 * B) B (4 * B) (by omega) (by omega)
  have h0 : (0 : M) + ∑ k : Fin B, f ⟨k.val, by have := k.isLt; omega⟩ = partialSum f B := by
    have h := partialSum_add_block_eq f 0 B B (by omega) (by omega)
    rw [partialSum_zero] at h
    rw [← h]
    congr 1
    refine Finset.sum_congr rfl (fun k _ => ?_)
    congr 1
    apply Fin.ext
    simp
  rw [h0, h1, h2, h3, partialSum_full]

end Cert.Lib.BlockSum
-- ==== Proof.KernelIdeal.Val0Acc.lean ====
import proofs.«423997_j8272107012808_3_alg».proof.Proof.KernelIdeal.Val0Pieces
import proofs.«423997_j8272107012808_3_alg».proof.Proof.KernelIdeal.Payloads
import proofs.«423997_j8272107012808_3_alg».proof.Proof.Spec
import proofs.«423997_j8272107012808_3_alg».proof.Proof.LibBlockSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

open Cert.Lib.BlockSum

variable (V : (c : Dev nD) → (b : Ref sig .tc) → Buf (Elt Ideal) ((c : Thread nD τ).loc b))

theorem idx0_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0 :=
  (by decide +kernel : ∀ t : Fin grid0.N, _)

abbrev xblk0 (c : Dev nD) (t : Fin cfg0.N) : Vec Ideal S2048x1024 .bf16 := iblk0 V c 0 t
abbrev wblk0 (c : Dev nD) (t : Fin cfg0.N) : Vec Ideal S1024x128 .bf16 := iblk0 V c 1 t
abbrev bblk0 (c : Dev nD) (t : Fin cfg0.N) : Vec Ideal S1x128 .f32 := iblk0 V c 2 t

abbrev xarr0 (c : Dev nD) : S16384x4096.Idx → EReal := V c main_v1
abbrev warr0 (c : Dev nD) : S4096x128.Idx → EReal := V c main_v7
abbrev barr0 (c : Dev nD) : S1x128.Idx → EReal := V c main_v11

theorem xblk0_apply (c : Dev nD) (t : Fin cfg0.N) (p : Fin 2048) (k : Fin 1024) (r : Fin 16384) (d : Fin 4096)
    (hr : r.val = t.val / 4 * 2048 + p.val) (hd : d.val = t.val % 4 * 1024 + k.val) :
    xblk0 V c t (ix2 p k) = xarr0 V c (ix2 r d) := by
  obtain ⟨e0, e1, -⟩ := idx0_facts t
  unfold xblk0 iblk0
  rw [View.read_apply]
  show V c main_v1 _ = V c main_v1 _
  congr 1
  funext a
  apply Fin.ext
  match a with
  | ⟨0, _⟩ => show win0_0.index t 0 * 2048 + 1 * p.val = r.val; rw [e0, hr]; omega
  | ⟨1, _⟩ => show win0_0.index t 1 * 1024 + 1 * k.val = d.val; rw [e1, hd]; omega

theorem wblk0_apply (c : Dev nD) (t : Fin cfg0.N) (k : Fin 1024) (q : Fin 128) (d : Fin 4096)
    (hd : d.val = t.val % 4 * 1024 + k.val) :
    wblk0 V c t (ix2 k q) = warr0 V c (ix2 d q) := by
  obtain ⟨-, -, e2, e3, -⟩ := idx0_facts t
  unfold wblk0 iblk0
  rw [View.read_apply]
  show V c main_v7 _ = V c main_v7 _
  congr 1
  funext a
  apply Fin.ext
  match a with
  | ⟨0, _⟩ => show win0_1.index t 0 * 1024 + 1 * k.val = d.val; rw [e2, hd]; omega
  | ⟨1, _⟩ => show win0_1.index t 1 * 128 + 1 * q.val = q.val; rw [e3]; omega

theorem bblk0_apply (c : Dev nD) (t : Fin cfg0.N) (q : Fin 128) :
    bblk0 V c t (ix2 0 q) = barr0 V c (ix2 0 q) := by
  obtain ⟨-, -, -, -, e4, e5, -⟩ := idx0_facts t
  unfold bblk0 iblk0
  rw [View.read_apply]
  show V c main_v11 _ = V c main_v11 _
  congr 1
  funext a
  apply Fin.ext
  match a with
  | ⟨0, _⟩ => show win0_2.index t 0 * 1 + 1 * 0 = 0; rw [e4]
  | ⟨1, _⟩ => show win0_2.index t 1 * 128 + 1 * q.val = q.val; rw [e5]; omega

def term0 (c : Dev nD) (r : Fin 16384) (q : Fin 128) (d : Fin 4096) : EReal :=
  xarr0 V c (ix2 r d) * warr0 V c (ix2 d q)

theorem blockprod0_eq (c : Dev nD) (t : Fin cfg0.N) (p : Fin 2048) (q : Fin 128) (r : Fin 16384)
    (hr : r.val = t.val / 4 * 2048 + p.val) :
    (∑ k : Fin 1024, xblk0 V c t (ix2 p k) * wblk0 V c t (ix2 k q))
      = ∑ k : Fin 1024, term0 V c r q ⟨t.val % 4 * 1024 + k.val, by have := k.isLt; omega⟩ := by
  refine Finset.sum_congr rfl fun k _ => ?_
  unfold term0
  rw [xblk0_apply V c t p k r ⟨t.val % 4 * 1024 + k.val, by have := k.isLt; omega⟩ hr rfl,
    wblk0_apply V c t k q ⟨t.val % 4 * 1024 + k.val, by have := k.isLt; omega⟩ rfl]

theorem acc0_step (f : Fin 4096 → EReal) (j : ℕ) (hj : j < 4) (m : ℕ) (hm : (j + 1) * 1024 = m) (a : EReal)
    (ha : a = partialSum f (j * 1024)) :
    a + ∑ k : Fin 1024, f ⟨j * 1024 + k.val, by have := k.isLt; omega⟩ = partialSum f m := by
  subst ha
  exact partialSum_add_block_eq f (j * 1024) 1024 m (by omega) (by omega)

theorem acc0_eq (c : Dev nD) : ∀ (n : ℕ) (hn : n < cfg0.N) (p : Fin 2048) (q : Fin 128) (r : Fin 16384),
    r.val = n / 4 * 2048 + p.val →
    ((outsAt0 V c n hn).2.2 : Vec Ideal S2048x128 .f32) (ix2 p q) = partialSum (term0 V c r q) ((n % 4 + 1) * 1024) := by
  intro n
  induction n with
  | zero =>
    intro hn p q r hr
    rw [outsAt0_A V c ⟨0, hn⟩ rfl (by show ¬0 % 4 = 3; decide)]
    dsimp only [rb0, runA0]
    rw [sout0_A_eq]
    refine (k0_pay2_apply _ _ _ p q).trans ?_
    rw [k0_pay1_apply, blockprod0_eq V c ⟨0, hn⟩ p q r hr]
    exact acc0_step (term0 V c r q) _ (Nat.mod_lt _ (by decide)) _ rfl _ (by
      show (0 : EReal) = partialSum (term0 V c r q) (0 % 4 * 1024)
      rw [show 0 % 4 * 1024 = 0 from rfl, partialSum_zero])
  | succ n ih =>
    intro hn p q r hr
    by_cases h0 : (n + 1) % 4 = 0
    · rw [outsAt0_A V c ⟨n + 1, hn⟩ h0 (by show ¬(n + 1) % 4 = 3; omega)]
      dsimp only [rb0, runA0]
      rw [sout0_A_eq]
      refine (k0_pay2_apply _ _ _ p q).trans ?_
      rw [k0_pay1_apply, blockprod0_eq V c ⟨n + 1, hn⟩ p q r hr]
      exact acc0_step (term0 V c r q) _ (Nat.mod_lt _ (by decide)) _ rfl _ (by
        show (0 : EReal) = partialSum (term0 V c r q) ((n + 1) % 4 * 1024)
        rw [h0, Nat.zero_mul, partialSum_zero])
    · have hprev : (outsAt0 V c (n + 1 - 1) (Nat.lt_of_le_of_lt (Nat.sub_le _ _) hn)).2.2 (ix2 p q)
          = partialSum (term0 V c r q) ((n + 1) % 4 * 1024) :=
        (ih (Nat.lt_of_succ_lt hn) p q r (by omega)).trans (congrArg (partialSum (term0 V c r q)) (by omega))
      by_cases h1 : (n + 1) % 4 = 3
      · rw [outsAt0_C V c ⟨n + 1, hn⟩ h0 h1]
        dsimp only [rb0, runC0]
        rw [sout0_C_eq]
        refine (k0_pay2_apply _ _ _ p q).trans ?_
        rw [blockprod0_eq V c ⟨n + 1, hn⟩ p q r hr]
        exact acc0_step (term0 V c r q) _ (Nat.mod_lt _ (by decide)) _ rfl _ hprev
      · rw [outsAt0_B V c ⟨n + 1, hn⟩ h0 h1]
        dsimp only [rb0, runB0]
        rw [sout0_B_eq]
        refine (k0_pay2_apply _ _ _ p q).trans ?_
        rw [blockprod0_eq V c ⟨n + 1, hn⟩ p q r hr]
        exact acc0_step (term0 V c r q) _ (Nat.mod_lt _ (by decide)) _ rfl _ hprev

theorem out0_3_of_acc (c : Dev nD) (t : Fin cfg0.N) (h0 : ¬t.val % 4 = 0) (h3 : t.val % 4 = 3) :
    (outsAt0 V c t.val t.isLt).1 = k0_pay4 (outsAt0 V c t.val t.isLt).2.2 (bblk0 V c t) := by
  rw [outsAt0_C V c t h0 h3]
  dsimp only [rb0, runC0]
  rw [out0_C_3_eq, sout0_C_eq]

theorem out0_4_of_acc (c : Dev nD) (t : Fin cfg0.N) (h0 : ¬t.val % 4 = 0) (h3 : t.val % 4 = 3) :
    (outsAt0 V c t.val t.isLt).2.1 = k0_pay5 (outsAt0 V c t.val t.isLt).2.2 (bblk0 V c t) := by
  rw [outsAt0_C V c t h0 h3]
  dsimp only [rb0, runC0]
  rw [out0_C_4_eq, sout0_C_eq]

theorem out0_3_at (c : Dev nD) (t : Fin cfg0.N) (h3 : t.val % 4 = 3) (p : Fin 2048) (q : Fin 64) (r : Fin 16384)
    (hr : r.val = t.val / 4 * 2048 + p.val) :
    ((outsAt0 V c t.val t.isLt).1 : Vec Ideal S2048x64 .f32) (ix2 p q)
      = Cert.Spec.mmb (xarr0 V c) (warr0 V c) (barr0 V c) r (⟨q.val, by omega⟩ : Fin 128) := by
  rw [out0_3_of_acc V c t (by omega) h3]
  refine (k0_pay4_apply _ _ p q).trans ?_
  rw [acc0_eq V c t.val t.isLt p (⟨q.val, by omega⟩ : Fin 128) r hr, bblk0_apply]
  unfold Cert.Spec.mmb
  rw [show (t.val % 4 + 1) * 1024 = 4096 from by omega, partialSum_full]
  rfl

theorem out0_4_at (c : Dev nD) (t : Fin cfg0.N) (h3 : t.val % 4 = 3) (p : Fin 2048) (q : Fin 64) (r : Fin 16384)
    (hr : r.val = t.val / 4 * 2048 + p.val) :
    ((outsAt0 V c t.val t.isLt).2.1 : Vec Ideal S2048x64 .f32) (ix2 p q)
      = Cert.Spec.mmb (xarr0 V c) (warr0 V c) (barr0 V c) r (⟨64 + q.val, by omega⟩ : Fin 128) := by
  rw [out0_4_of_acc V c t (by omega) h3]
  refine (k0_pay5_apply _ _ p q).trans ?_
  rw [acc0_eq V c t.val t.isLt p (⟨64 + q.val, by omega⟩ : Fin 128) r hr, bblk0_apply]
  unfold Cert.Spec.mmb
  rw [show (t.val % 4 + 1) * 1024 = 4096 from by omega, partialSum_full]
  rfl

end Cert.KernelIdeal.Hand

end
-- ==== Proof.KernelIdeal.Val0.lean ====
import proofs.«423997_j8272107012808_3_alg».proof.Proof.KernelIdeal.Val0Acc

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem inblk0_3 (t : Fin cfg0.N) (i : S16384x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v12_0).slice (win0_3.rect t)).set ↔ _
  rw [View.set_slice_whole, Rect.mem_set_unit]
  exact Iff.rfl

theorem covered0_3 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 32 := N_0
  obtain ⟨t, ht⟩ : ∃ t : Fin cfg0.N, t.val = (i 0).val / 2048 * 4 + 3 := ⟨⟨(i 0).val / 2048 * 4 + 3, by omega⟩, rfl⟩
  obtain ⟨-, -, -, -, -, -, e6, e7, e8, e9⟩ := idx0_facts t
  refine ⟨t, (flush0_3 t).mpr (by omega), ?_⟩
  rw [inblk0_3]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 64 ≤ (i 1).val ∧ (i 1).val < win0_3.index t (1 : Fin 2) * 64 + 64
    rw [e7]; omega

theorem flushed0_3_eq (c : Dev nD) (t : Fin cfg0.N) (hf : (cfg0.win 3).flush t = true) :
    (dat0 (F := Ideal) V c).flushed 3 t
      = ((cfg0.win 3).blk t).view.read (Elt Ideal) (Cert.Spec.kOut (V c main_v1) (V c main_v7) (V c main_v11)) := by
  have h3 : t.val % 4 = 3 := (flush0_3 t).mp hf
  have hN : cfg0.N = 32 := N_0
  obtain ⟨-, -, -, -, -, -, e6, e7, e8, e9⟩ := idx0_facts t
  show (cfg0.win 3).cut (grid0.coords t) ((dat0 (F := Ideal) V c).after 3 t) = _
  rw [after0_3]
  show ((outsAt0 V c t.val t.isLt).1 : S2048x64.Idx → EReal)
    = (((cfg0.win 3).blk t).view.read (Elt Ideal) (Cert.Spec.kOut (V c main_v1) (V c main_v7) (V c main_v11)) : S2048x64.Idx → EReal)
  funext j
  obtain ⟨p, q, rfl⟩ : ∃ (p : Fin 2048) (q : Fin 64), j = ix2 p q := ⟨j 0, j 1, eq_ix2 j⟩
  rw [View.read_apply]
  refine (out0_3_at V c t h3 p q ⟨t.val / 4 * 2048 + p.val, by have := p.isLt; omega⟩ rfl).trans ?_
  unfold Cert.Spec.kOut
  show Cert.Spec.mmb (V c main_v1) (V c main_v7) (V c main_v11) _ _ = Cert.Spec.mmb (V c main_v1) (V c main_v7) (V c main_v11) _ _
  refine congrArg₂ (Cert.Spec.mmb (V c main_v1) (V c main_v7) (V c main_v11)) (Fin.ext ?_) (Fin.ext ?_)
  · show t.val / 4 * 2048 + p.val = win0_3.index t (0 : Fin 2) * 2048 + 1 * p.val
    rw [e6]; omega
  · show q.val = win0_3.index t (1 : Fin 2) * 64 + 1 * q.val
    rw [e7]; omega

theorem final0_3 (c : Dev nD) :
    ((dat0 (F := Ideal) V c).arrAt 3 cfg0.N : S16384x64.Idx → EReal) = Cert.Spec.kOut (V c main_v1) (V c main_v7) (V c main_v11) :=
  (dat0 (F := Ideal) V c).arrAt_eq_of_cover 3 (Cert.Spec.kOut (V c main_v1) (V c main_v7) (V c main_v11)) (flushed0_3_eq V c) covered0_3

theorem inblk0_4 (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v12_1).slice (win0_4.rect t)).set ↔ _
  rw [View.set_slice_whole, Rect.mem_set_unit]
  exact Iff.rfl

theorem covered0_4 (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  have hN : cfg0.N = 32 := N_0
  obtain ⟨t, ht⟩ : ∃ t : Fin cfg0.N, t.val = (i 0).val / 2048 * 4 + 3 := ⟨⟨(i 0).val / 2048 * 4 + 3, by omega⟩, rfl⟩
  obtain ⟨-, -, -, -, -, -, e6, e7, e8, e9⟩ := idx0_facts t
  refine ⟨t, (flush0_4 t).mpr (by omega), ?_⟩
  rw [inblk0_4]
  intro a
  match a with
  | ⟨0, _⟩ =>
    show win0_4.index t (0 : Fin 2) * 2048 ≤ (i 0).val ∧ (i 0).val < win0_4.index t (0 : Fin 2) * 2048 + 2048
    rw [e8, ht]; omega
  | ⟨1, _⟩ =>
    show win0_4.index t (1 : Fin 2) * 64 ≤ (i 1).val ∧ (i 1).val < win0_4.index t (1 : Fin 2) * 64 + 64
    rw [e9]; omega

theorem flushed0_4_eq (c : Dev nD) (t : Fin cfg0.N) (hf : (cfg0.win 4).flush t = true) :
    (dat0 (F := Ideal) V c).flushed 4 t
      = ((cfg0.win 4).blk t).view.read (Elt Ideal) (Cert.Spec.vOut (V c main_v1) (V c main_v7) (V c main_v11)) := by
  have h3 : t.val % 4 = 3 := (flush0_4 t).mp hf
  have hN : cfg0.N = 32 := N_0
  obtain ⟨-, -, -, -, -, -, e6, e7, e8, e9⟩ := idx0_facts t
  show (cfg0.win 4).cut (grid0.coords t) ((dat0 (F := Ideal) V c).after 4 t) = _
  rw [after0_4]
  show ((outsAt0 V c t.val t.isLt).2.1 : S2048x64.Idx → EReal)
    = (((cfg0.win 4).blk t).view.read (Elt Ideal) (Cert.Spec.vOut (V c main_v1) (V c main_v7) (V c main_v11)) : S2048x64.Idx → EReal)
  funext j
  obtain ⟨p, q, rfl⟩ : ∃ (p : Fin 2048) (q : Fin 64), j = ix2 p q := ⟨j 0, j 1, eq_ix2 j⟩
  rw [View.read_apply]
  refine (out0_4_at V c t h3 p q ⟨t.val / 4 * 2048 + p.val, by have := p.isLt; omega⟩ rfl).trans ?_
  unfold Cert.Spec.vOut
  show Cert.Spec.mmb (V c main_v1) (V c main_v7) (V c main_v11) _ _ = Cert.Spec.mmb (V c main_v1) (V c main_v7) (V c main_v11) _ _
  refine congrArg₂ (Cert.Spec.mmb (V c main_v1) (V c main_v7) (V c main_v11)) (Fin.ext ?_) (Fin.ext ?_)
  · show t.val / 4 * 2048 + p.val = win0_4.index t (0 : Fin 2) * 2048 + 1 * p.val
    rw [e8]; omega
  · show 64 + q.val = 64 + (win0_4.index t (1 : Fin 2) * 64 + 1 * q.val)
    rw [e9]; omega

theorem final0_4 (c : Dev nD) :
    ((dat0 (F := Ideal) V c).arrAt 4 cfg0.N : S16384x64.Idx → EReal) = Cert.Spec.vOut (V c main_v1) (V c main_v7) (V c main_v11) :=
  (dat0 (F := Ideal) V c).arrAt_eq_of_cover 4 (Cert.Spec.vOut (V c main_v1) (V c main_v7) (V c main_v11)) (flushed0_4_eq V c) covered0_4

end Cert.KernelIdeal.Hand

end
-- ==== Proof.KernelIdeal.Val1Pieces.lean ====
import proofs.«423997_j8272107012808_3_alg».proof.Proof.KernelIdeal.Reg1
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz1 : (![0, 0] : Fin 2 → Nat) = fun _ => 0 := funext fun a => by fin_cases a <;> rfl

section
variable (c : Dev nD) (i : grid1.Coords) (arg3 : Memref sig .tc .vmem S1024x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x512 .bf16) (harg8 : arg8.IsWhole) (arg9 : Memref sig .tc .vmem S1024x512 .f32) (harg9 : arg9.IsWhole)

section
variable (hc0 : cond1_0 i) (hc1 : ¬cond1_1 i) (x0 : Vec F S1024x1024 .bf16) (x1 : Vec F S1024x512 .bf16) (x2 : Vec F S1x512 .f32) (x3 : Vec F S1024x64 .f32) (x4 : Vec F S1024x64 .f32)
theorem soutA1_eq : VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1) = k1_pay2 (k1_pay1 (F := F)) x0 x1 := by
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x512) hz1, View.readCov_unit_zero (S := S1024x512) _ hz1]
  simp only [View.readAt_eq_ld, harg3.read_unread, harg4.read_unread, harg5.read_unread, harg6.read_unread, harg7.read_unread, harg9.read_unread,
    View.ld_unit_zero (S := S1024x1024) hz1, View.ld_unit_zero (S := S1024x512) hz1, View.ld_unit_zero (S := S1x512) hz1, View.ld_unit_zero (S := S1024x64) hz1]

end

section
variable (hc0 : ¬cond1_0 i) (hc1 : ¬cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
theorem soutB1_eq : VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1) = k1_pay2 xs0 x0 x1 := by
  rw [View.read_writes_eq_canon _ _ _ (scover1_B_0 c i arg3 harg3 arg4 harg4 arg5 harg5 arg6 harg6 arg7 harg7 arg8 harg8 arg9 harg9 hc0 hc1 x0 x1 x2 x3 x4 xs0)]
  unfold kernelRun1_B
  dsimp only
  try sl_unfold_words
  rw [View.canon_unit_zero hz1]
  simp only [View.readAt_eq_ld, harg3.read_unread, harg4.read_unread, harg5.read_unread, harg6.read_unread, harg7.read_unread, harg9.read_unread,
    View.ld_unit_zero (S := S1024x1024) hz1, View.ld_unit_zero (S := S1024x512) hz1, View.ld_unit_zero (S := S1x512) hz1, View.ld_unit_zero (S := S1024x64) hz1]

end

section
variable (hc0 : ¬cond1_0 i) (hc1 : cond1_1 i) (x0 : Vec F S1024x1024 .bf16) (x1 : Vec F S1024x512 .bf16) (x2 : Vec F S1x512 .f32) (x3 : Vec F S1024x64 .f32) (x4 : Vec F S1024x64 .f32) (xs0 : Vec F S1024x512 .f32)
theorem soutC1_eq : VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1) = k1_pay2 xs0 x0 x1 := by
  rw [View.read_writes_eq_canon _ _ _ (scover1_C_0 c i arg3 harg3 arg4 harg4 arg5 harg5 arg6 harg6 arg7 harg7 arg8 harg8 arg9 harg9 hc0 hc1 x0 x1 x2 x3 x4 xs0)]
  unfold kernelRun1_C
  dsimp only
  try sl_unfold_words
  rw [View.canon_unit_zero hz1]
  simp only [View.readAt_eq_ld, harg3.read_unread, harg4.read_unread, harg5.read_unread, harg6.read_unread, harg7.read_unread, harg9.read_unread,
    View.ld_unit_zero (S := S1024x1024) hz1, View.ld_unit_zero (S := S1024x512) hz1, View.ld_unit_zero (S := S1x512) hz1, View.ld_unit_zero (S := S1024x64) hz1]

theorem outC1_eq : VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1) = k1_pay3 (k1_pay2 xs0 x0 x1) x2 x3 x4 := by
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  try sl_unfold_words
  rw [View.canon_unit_zero hz1]
  simp only [View.readCov_unit_zero (S := S1024x512) _ hz1, View.readAt_eq_ld, harg3.read_unread, harg4.read_unread, harg5.read_unread, harg6.read_unread, harg7.read_unread, harg9.read_unread,
    View.ld_unit_zero (S := S1024x1024) hz1, View.ld_unit_zero (S := S1024x512) hz1, View.ld_unit_zero (S := S1x512) hz1, View.ld_unit_zero (S := S1024x64) hz1]
end

end

end Cert.KernelIdeal.Hand

end
-- ==== Proof.KernelIdeal.Val1Acc.lean ====
import proofs.«423997_j8272107012808_3_alg».proof.Proof.KernelIdeal.Val1Pieces
import proofs.«423997_j8272107012808_3_alg».proof.Proof.KernelIdeal.Payloads
import proofs.«423997_j8272107012808_3_alg».proof.Proof.Spec
import proofs.«423997_j8272107012808_3_alg».proof.Proof.LibPlainDot
import proofs.«423997_j8272107012808_3_alg».proof.Proof.LibBlockSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Lib.BlockSum

variable (V : (c : Dev nD) → (b : Ref sig .tc) → Buf (Elt Ideal) ((c : Thread nD τ).loc b))

abbrev xarr1 (c : Dev nD) : Cert.Spec.Arr2 16384 4096 := V c main_v1

abbrev warr1 (c : Dev nD) : Cert.Spec.Arr2 4096 4096 := V c main_v3

abbrev barr1 (c : Dev nD) : Cert.Spec.Arr2 1 4096 := V c main_v16

abbrev karr1 (c : Dev nD) : Cert.Spec.Arr2 16384 64 := V c main_v15

abbrev varr1 (c : Dev nD) : Cert.Spec.Arr2 16384 64 := V c main_v12_1

theorem idx_facts1 : ∀ t : Fin cfg1.N,
    win1_0.index t (0 : Fin 2) = t.val / 32 ∧ win1_0.index t (1 : Fin 2) = t.val % 4
    ∧ win1_1.index t (0 : Fin 2) = t.val % 4 ∧ win1_1.index t (1 : Fin 2) = t.val / 4 % 8
    ∧ win1_2.index t (0 : Fin 2) = 0 ∧ win1_2.index t (1 : Fin 2) = t.val / 4 % 8
    ∧ win1_3.index t (0 : Fin 2) = t.val / 32 ∧ win1_3.index t (1 : Fin 2) = 0
    ∧ win1_4.index t (0 : Fin 2) = t.val / 32 ∧ win1_4.index t (1 : Fin 2) = 0
    ∧ win1_5.index t (0 : Fin 2) = t.val / 32 ∧ win1_5.index t (1 : Fin 2) = t.val / 4 % 8 :=
  (by decide +kernel : ∀ t : Fin grid1.N, _)

theorem xblk1_apply (c : Dev nD) (t : Fin cfg1.N) (p : Fin 1024) (q : Fin 1024) (r : Fin 16384) (n : Fin 4096)
    (hr : r.val = t.val / 32 * 1024 + p.val) (hn : n.val = t.val % 4 * 1024 + q.val) :
    ((iblk1 V c 0 t : Vec Ideal S1024x1024 .bf16) (ix2 p q) : EReal) = xarr1 V c (ix2 r n) := by
  have e := idx_facts1 t
  unfold iblk1
  rw [View.read_apply]
  show V c main_v1 _ = V c main_v1 _
  congr 1
  funext a
  apply Fin.ext
  match a with
  | ⟨0, _⟩ => show win1_0.index t 0 * 1024 + 1 * p.val = r.val; rw [hr]; omega
  | ⟨1, _⟩ => show win1_0.index t 1 * 1024 + 1 * q.val = n.val; rw [hn]; omega

theorem wblk1_apply (c : Dev nD) (t : Fin cfg1.N) (p : Fin 1024) (q : Fin 512) (r : Fin 4096) (n : Fin 4096)
    (hr : r.val = t.val % 4 * 1024 + p.val) (hn : n.val = t.val / 4 % 8 * 512 + q.val) :
    ((iblk1 V c 1 t : Vec Ideal S1024x512 .bf16) (ix2 p q) : EReal) = warr1 V c (ix2 r n) := by
  have e := idx_facts1 t
  unfold iblk1
  rw [View.read_apply]
  show V c main_v3 _ = V c main_v3 _
  congr 1
  funext a
  apply Fin.ext
  match a with
  | ⟨0, _⟩ => show win1_1.index t 0 * 1024 + 1 * p.val = r.val; rw [hr]; omega
  | ⟨1, _⟩ => show win1_1.index t 1 * 512 + 1 * q.val = n.val; rw [hn]; omega

theorem bblk1_apply (c : Dev nD) (t : Fin cfg1.N) (p : Fin 1) (q : Fin 512) (r : Fin 1) (n : Fin 4096)
    (hr : r.val = 0 * 1 + p.val) (hn : n.val = t.val / 4 % 8 * 512 + q.val) :
    ((iblk1 V c 2 t : Vec Ideal S1x512 .f32) (ix2 p q) : EReal) = barr1 V c (ix2 r n) := by
  have e := idx_facts1 t
  unfold iblk1
  rw [View.read_apply]
  show V c main_v16 _ = V c main_v16 _
  congr 1
  funext a
  apply Fin.ext
  match a with
  | ⟨0, _⟩ => show win1_2.index t 0 * 1 + 1 * p.val = r.val; rw [hr]; omega
  | ⟨1, _⟩ => show win1_2.index t 1 * 512 + 1 * q.val = n.val; rw [hn]; omega

theorem kblk1_apply (c : Dev nD) (t : Fin cfg1.N) (p : Fin 1024) (q : Fin 64) (r : Fin 16384) (n : Fin 64)
    (hr : r.val = t.val / 32 * 1024 + p.val) (hn : n.val = 0 * 64 + q.val) :
    ((iblk1 V c 3 t : Vec Ideal S1024x64 .f32) (ix2 p q) : EReal) = karr1 V c (ix2 r n) := by
  have e := idx_facts1 t
  unfold iblk1
  rw [View.read_apply]
  show V c main_v15 _ = V c main_v15 _
  congr 1
  funext a
  apply Fin.ext
  match a with
  | ⟨0, _⟩ => show win1_3.index t 0 * 1024 + 1 * p.val = r.val; rw [hr]; omega
  | ⟨1, _⟩ => show win1_3.index t 1 * 64 + 1 * q.val = n.val; rw [hn]; omega

theorem vblk1_apply (c : Dev nD) (t : Fin cfg1.N) (p : Fin 1024) (q : Fin 64) (r : Fin 16384) (n : Fin 64)
    (hr : r.val = t.val / 32 * 1024 + p.val) (hn : n.val = 0 * 64 + q.val) :
    ((iblk1 V c 4 t : Vec Ideal S1024x64 .f32) (ix2 p q) : EReal) = varr1 V c (ix2 r n) := by
  have e := idx_facts1 t
  unfold iblk1
  rw [View.read_apply]
  show V c main_v12_1 _ = V c main_v12_1 _
  congr 1
  funext a
  apply Fin.ext
  match a with
  | ⟨0, _⟩ => show win1_4.index t 0 * 1024 + 1 * p.val = r.val; rw [hr]; omega
  | ⟨1, _⟩ => show win1_4.index t 1 * 64 + 1 * q.val = n.val; rw [hn]; omega

abbrev term1 (c : Dev nD) (r : Fin 16384) (n : Fin 4096) : Fin 4096 → EReal :=
  fun d => xarr1 V c (ix2 r d) * warr1 V c (ix2 d n)

theorem step1_eq (c : Dev nD) (t : Fin cfg1.N) (p : Fin 1024) (q : Fin 512) (r : Fin 16384) (n : Fin 4096)
    (hr : r.val = t.val / 32 * 1024 + p.val) (hn : n.val = t.val / 4 % 8 * 512 + q.val)
    (acc : Vec Ideal S1024x512 .f32) (hs : (acc (ix2 p q) : EReal) = partialSum (term1 V c r n) (t.val % 4 * 1024)) :
    (k1_pay2 (F := Ideal) acc (iblk1 V c 0 t) (iblk1 V c 1 t) (ix2 p q) : EReal)
      = partialSum (term1 V c r n) ((t.val % 4 + 1) * 1024) := by
  refine (k1_pay2_apply acc (iblk1 V c 0 t) (iblk1 V c 1 t) p q).trans ?_
  rw [hs]
  refine Eq.trans ?_ (partialSum_add_block_eq (term1 V c r n) (t.val % 4 * 1024) 1024 ((t.val % 4 + 1) * 1024) (by omega) (by omega))
  refine congrArg (fun s : EReal => partialSum (term1 V c r n) (t.val % 4 * 1024) + s) ?_
  refine Finset.sum_congr rfl fun k _ => ?_
  exact congrArg₂ (fun a b : EReal => a * b)
    (xblk1_apply V c t p k r ⟨t.val % 4 * 1024 + k.val, by have := k.isLt; omega⟩ hr rfl)
    (wblk1_apply V c t k q ⟨t.val % 4 * 1024 + k.val, by have := k.isLt; omega⟩ n rfl hn)

theorem acc1_point (c : Dev nD) (t : Fin cfg1.N) (p : Fin 1024) (q : Fin 512) (r : Fin 16384) (m : Fin 4096)
    (hr : r.val = t.val / 32 * 1024 + p.val) (hm : m.val = t.val / 4 % 8 * 512 + q.val)
    (hprev : ¬t.val % 4 = 0 → (((outsAt1 V c (t.val - 1) (Nat.lt_of_le_of_lt (Nat.sub_le _ _) t.isLt)).2 : Vec Ideal S1024x512 .f32) (ix2 p q) : EReal)
        = partialSum (term1 V c r m) (t.val % 4 * 1024)) :
    (((outsAt1 V c t.val t.isLt).2 : Vec Ideal S1024x512 .f32) (ix2 p q) : EReal)
      = partialSum (term1 V c r m) ((t.val % 4 + 1) * 1024) := by
  by_cases h0 : t.val % 4 = 0
  · have h1 : ¬t.val % 4 = 3 := by omega
    rw [outsAt1_A V c t h0 h1]
    dsimp only [rb1, runA1]
    refine (congrFun (soutA1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) (ix2 p q)).trans ?_
    exact step1_eq V c t p q r m hr hm (k1_pay1 (F := Ideal)) (by rw [h0, Nat.zero_mul, partialSum_zero]; exact k1_pay1_apply (ix2 p q))
  · by_cases h1 : t.val % 4 = 3
    · rw [outsAt1_C V c t h0 h1]
      dsimp only [rb1, runC1]
      refine (congrFun (soutC1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 p q)).trans ?_
      exact step1_eq V c t p q r m hr hm _ (hprev h0)
    · rw [outsAt1_B V c t h0 h1]
      dsimp only [rb1, runB1]
      refine (congrFun (soutB1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 p q)).trans ?_
      exact step1_eq V c t p q r m hr hm _ (hprev h0)

theorem acc1_eq (c : Dev nD) (n : ℕ) : ∀ (hn : n < cfg1.N) (p : Fin 1024) (q : Fin 512) (r : Fin 16384) (m : Fin 4096),
    r.val = n / 32 * 1024 + p.val → m.val = n / 4 % 8 * 512 + q.val →
    (((outsAt1 V c n hn).2 : Vec Ideal S1024x512 .f32) (ix2 p q) : EReal) = partialSum (term1 V c r m) ((n % 4 + 1) * 1024) := by
  induction n with
  | zero =>
    intro hn p q r m hr hm
    exact acc1_point V c ⟨0, hn⟩ p q r m hr hm (fun h0 => absurd rfl h0)
  | succ n ih =>
    intro hn p q r m hr hm
    have hN : n + 1 < 512 := lt_of_lt_of_eq hn (show cfg1.N = 512 from N_1)
    refine acc1_point V c ⟨n + 1, hn⟩ p q r m hr hm (fun h0 => ?_)
    have h0' : ¬(n + 1) % 4 = 0 := h0
    have e := ih (Nat.lt_of_succ_lt hn) p q r m (by omega) (by omega)
    have hk : (n % 4 + 1) * 1024 = (n + 1) % 4 * 1024 := by omega
    rw [hk] at e
    exact e

theorem acc1_last (c : Dev nD) (t : Fin cfg1.N) (h3 : t.val % 4 = 3) (p : Fin 1024) (q : Fin 512) (r : Fin 16384) (m : Fin 4096)
    (hr : r.val = t.val / 32 * 1024 + p.val) (hm : m.val = t.val / 4 % 8 * 512 + q.val) :
    (k1_pay2 (F := Ideal) (outsAt1 V c (t.val - 1) (Nat.lt_of_le_of_lt (Nat.sub_le _ _) t.isLt)).2 (iblk1 V c 0 t) (iblk1 V c 1 t) (ix2 p q) : EReal)
      = ∑ d : Fin 4096, xarr1 V c (ix2 r d) * warr1 V c (ix2 d m) := by
  have hN : t.val < 512 := lt_of_lt_of_eq t.isLt (show cfg1.N = 512 from N_1)
  have e := acc1_eq V c (t.val - 1) (Nat.lt_of_le_of_lt (Nat.sub_le _ _) t.isLt) p q r m (by omega) (by omega)
  have hk : ((t.val - 1) % 4 + 1) * 1024 = t.val % 4 * 1024 := by omega
  rw [hk] at e
  refine (step1_eq V c t p q r m hr hm _ e).trans ?_
  have hf : (t.val % 4 + 1) * 1024 = 4096 := by omega
  rw [hf]
  exact partialSum_full (term1 V c r m)

end Cert.KernelIdeal.Hand

end
-- ==== Proof.KernelIdeal.Blocks1.lean ====
import proofs.«423997_j8272107012808_3_alg».proof.Proof.KernelIdeal.Reg1
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem blockIndex1 : ∀ t : Fin cfg1.N,
    win1_0.index t (0 : Fin 2) = t.val / 32 ∧ win1_0.index t (1 : Fin 2) = t.val % 4
    ∧ win1_1.index t (0 : Fin 2) = t.val % 4 ∧ win1_1.index t (1 : Fin 2) = t.val / 4 % 8
    ∧ win1_2.index t (0 : Fin 2) = 0 ∧ win1_2.index t (1 : Fin 2) = t.val / 4 % 8
    ∧ win1_3.index t (0 : Fin 2) = t.val / 32 ∧ win1_3.index t (1 : Fin 2) = 0
    ∧ win1_4.index t (0 : Fin 2) = t.val / 32 ∧ win1_4.index t (1 : Fin 2) = 0
    ∧ win1_5.index t (0 : Fin 2) = t.val / 32 ∧ win1_5.index t (1 : Fin 2) = t.val / 4 % 8 :=
  (by decide +kernel : ∀ t : Fin grid1.N, _)

theorem blk1_0 (c : Dev nD) (t : Fin cfg1.N) (p k : Fin 1024) :
    (iblk1 V c 0 t : S1024x1024.Idx → EReal) (ix2 p k)
      = (V c main_v1 : S16384x4096.Idx → EReal)
          (ix2 (⟨(t.val / 32) * 1024 + p.val, by have := t.isLt; have hN : cfg1.N = 512 := N_1; have := p.isLt; omega⟩ : Fin 16384)
            (⟨(t.val % 4) * 1024 + k.val, by have := k.isLt; omega⟩ : Fin 4096)) := by
  obtain ⟨e0, e1, -⟩ := blockIndex1 t
  unfold iblk1
  rw [View.read_apply]
  show V c main_v1 _ = V c main_v1 _
  congr 1
  funext a
  apply Fin.ext
  match a with
  | ⟨0, _⟩ => show win1_0.index t (0 : Fin 2) * 1024 + 1 * p.val = t.val / 32 * 1024 + p.val; rw [e0]; omega
  | ⟨1, _⟩ => show win1_0.index t (1 : Fin 2) * 1024 + 1 * k.val = t.val % 4 * 1024 + k.val; rw [e1]; omega

theorem blk1_1 (c : Dev nD) (t : Fin cfg1.N) (k : Fin 1024) (q : Fin 512) :
    (iblk1 V c 1 t : S1024x512.Idx → EReal) (ix2 k q)
      = (V c main_v3 : S4096x4096.Idx → EReal)
          (ix2 (⟨(t.val % 4) * 1024 + k.val, by have := k.isLt; omega⟩ : Fin 4096)
            (⟨((t.val / 4) % 8) * 512 + q.val, by have := q.isLt; omega⟩ : Fin 4096)) := by
  obtain ⟨-, -, e0, e1, -⟩ := blockIndex1 t
  unfold iblk1
  rw [View.read_apply]
  show V c main_v3 _ = V c main_v3 _
  congr 1
  funext a
  apply Fin.ext
  match a with
  | ⟨0, _⟩ => show win1_1.index t (0 : Fin 2) * 1024 + 1 * k.val = t.val % 4 * 1024 + k.val; rw [e0]; omega
  | ⟨1, _⟩ => show win1_1.index t (1 : Fin 2) * 512 + 1 * q.val = t.val / 4 % 8 * 512 + q.val; rw [e1]; omega

theorem blk1_2 (c : Dev nD) (t : Fin cfg1.N) (q : Fin 512) :
    (iblk1 V c 2 t : S1x512.Idx → EReal) (ix2 0 q)
      = (V c main_v16 : S1x4096.Idx → EReal)
          (ix2 0 (⟨((t.val / 4) % 8) * 512 + q.val, by have := q.isLt; omega⟩ : Fin 4096)) := by
  obtain ⟨-, -, -, -, e0, e1, -⟩ := blockIndex1 t
  unfold iblk1
  rw [View.read_apply]
  show V c main_v16 _ = V c main_v16 _
  congr 1
  funext a
  apply Fin.ext
  match a with
  | ⟨0, _⟩ => show win1_2.index t (0 : Fin 2) * 1 + 1 * 0 = 0; rw [e0]
  | ⟨1, _⟩ => show win1_2.index t (1 : Fin 2) * 512 + 1 * q.val = t.val / 4 % 8 * 512 + q.val; rw [e1]; omega

theorem blk1_3 (c : Dev nD) (t : Fin cfg1.N) (p : Fin 1024) (h : Fin 64) :
    (iblk1 V c 3 t : S1024x64.Idx → EReal) (ix2 p h)
      = (V c main_v15 : S16384x64.Idx → EReal)
          (ix2 (⟨(t.val / 32) * 1024 + p.val, by have := t.isLt; have hN : cfg1.N = 512 := N_1; have := p.isLt; omega⟩ : Fin 16384) h) := by
  obtain ⟨-, -, -, -, -, -, e0, e1, -⟩ := blockIndex1 t
  unfold iblk1
  rw [View.read_apply]
  show V c main_v15 _ = V c main_v15 _
  congr 1
  funext a
  apply Fin.ext
  match a with
  | ⟨0, _⟩ => show win1_3.index t (0 : Fin 2) * 1024 + 1 * p.val = t.val / 32 * 1024 + p.val; rw [e0]; omega
  | ⟨1, _⟩ => show win1_3.index t (1 : Fin 2) * 64 + 1 * h.val = h.val; rw [e1]; omega

theorem blk1_4 (c : Dev nD) (t : Fin cfg1.N) (p : Fin 1024) (h : Fin 64) :
    (iblk1 V c 4 t : S1024x64.Idx → EReal) (ix2 p h)
      = (V c main_v12_1 : S16384x64.Idx → EReal)
          (ix2 (⟨(t.val / 32) * 1024 + p.val, by have := t.isLt; have hN : cfg1.N = 512 := N_1; have := p.isLt; omega⟩ : Fin 16384) h) := by
  obtain ⟨-, -, -, -, -, -, -, -, e0, e1, -⟩ := blockIndex1 t
  unfold iblk1
  rw [View.read_apply]
  show V c main_v12_1 _ = V c main_v12_1 _
  congr 1
  funext a
  apply Fin.ext
  match a with
  | ⟨0, _⟩ => show win1_4.index t (0 : Fin 2) * 1024 + 1 * p.val = t.val / 32 * 1024 + p.val; rw [e0]; omega
  | ⟨1, _⟩ => show win1_4.index t (1 : Fin 2) * 64 + 1 * h.val = h.val; rw [e1]; omega

theorem read_blk1_5 (c : Dev nD) (G : S16384x4096.Idx → EReal) (t : Fin cfg1.N) (p : Fin 1024) (q : Fin 512) :
    (((cfg1.win 5).blk t).view.read (Elt Ideal) G : S1024x512.Idx → EReal) (ix2 p q)
      = G (ix2 (⟨(t.val / 32) * 1024 + p.val, by have := t.isLt; have hN : cfg1.N = 512 := N_1; have := p.isLt; omega⟩ : Fin 16384)
            (⟨((t.val / 4) % 8) * 512 + q.val, by have := q.isLt; omega⟩ : Fin 4096)) := by
  obtain ⟨-, -, -, -, -, -, -, -, -, -, e0, e1⟩ := blockIndex1 t
  rw [View.read_apply]
  show G _ = G _
  congr 1
  funext a
  apply Fin.ext
  match a with
  | ⟨0, _⟩ => show win1_5.index t (0 : Fin 2) * 1024 + 1 * p.val = t.val / 32 * 1024 + p.val; rw [e0]; omega
  | ⟨1, _⟩ => show win1_5.index t (1 : Fin 2) * 512 + 1 * q.val = t.val / 4 % 8 * 512 + q.val; rw [e1]; omega

theorem mem_blk1_5 (t : Fin cfg1.N) (i : S16384x4096.Idx) :
    i ∈ ((cfg1.win 5).blk t).view.set
      ↔ (t.val / 32) * 1024 ≤ (i 0).val ∧ (i 0).val < (t.val / 32) * 1024 + 1024
        ∧ ((t.val / 4) % 8) * 512 ≤ (i 1).val ∧ (i 1).val < ((t.val / 4) % 8) * 512 + 512 := by
  obtain ⟨-, -, -, -, -, -, -, -, -, -, e0, e1⟩ := blockIndex1 t
  show i ∈ ((View.whole main_v17).slice (win1_5.rect t)).set ↔ _
  rw [View.set_slice_whole, Rect.mem_set_unit]
  constructor
  · intro h
    have b0 : win1_5.index t (0 : Fin 2) * 1024 ≤ (i 0).val ∧ (i 0).val < win1_5.index t (0 : Fin 2) * 1024 + 1024 := h 0
    have b1 : win1_5.index t (1 : Fin 2) * 512 ≤ (i 1).val ∧ (i 1).val < win1_5.index t (1 : Fin 2) * 512 + 512 := h 1
    rw [e0] at b0; rw [e1] at b1
    exact ⟨b0.1, b0.2, b1.1, b1.2⟩
  · rintro ⟨h1, h2, h3, h4⟩ a
    match a with
    | ⟨0, _⟩ =>
      show win1_5.index t (0 : Fin 2) * 1024 ≤ (i 0).val ∧ (i 0).val < win1_5.index t (0 : Fin 2) * 1024 + 1024
      rw [e0]; exact ⟨h1, h2⟩
    | ⟨1, _⟩ =>
      show win1_5.index t (1 : Fin 2) * 512 ≤ (i 1).val ∧ (i 1).val < win1_5.index t (1 : Fin 2) * 512 + 512
      rw [e1]; exact ⟨h3, h4⟩

theorem cover1_5 (c : Dev nD) : ∀ i : ((cfg1.win 5).arr.view.loc (c.tc : Thread nD τ)).2.ty.Idx,
    ∃ t : Fin cfg1.N, (cfg1.win 5).flush t = true ∧ i ∈ ((cfg1.win 5).blk t).view.set := by
  intro i
  have hN : cfg1.N = 512 := N_1
  have h0 : (i 0).val < 16384 := (i 0).isLt
  have h1 : (i 1).val < 4096 := (i 1).isLt
  refine ⟨⟨(i 0).val / 1024 * 32 + (i 1).val / 512 * 4 + 3, by omega⟩, ?_, ?_⟩
  · exact (flush1_5 _).mpr (by show ((i 0).val / 1024 * 32 + (i 1).val / 512 * 4 + 3) % 4 = 3; omega)
  · refine (mem_blk1_5 _ i).mpr ?_
    show ((i 0).val / 1024 * 32 + (i 1).val / 512 * 4 + 3) / 32 * 1024 ≤ (i 0).val
      ∧ (i 0).val < ((i 0).val / 1024 * 32 + (i 1).val / 512 * 4 + 3) / 32 * 1024 + 1024
      ∧ ((i 0).val / 1024 * 32 + (i 1).val / 512 * 4 + 3) / 4 % 8 * 512 ≤ (i 1).val
      ∧ (i 1).val < ((i 0).val / 1024 * 32 + (i 1).val / 512 * 4 + 3) / 4 % 8 * 512 + 512
    omega

end Cert.KernelIdeal.Hand

end
-- ==== Proof.KernelIdeal.Val1.lean ====
import proofs.«423997_j8272107012808_3_alg».proof.Proof.KernelIdeal.Val1Acc
import proofs.«423997_j8272107012808_3_alg».proof.Proof.KernelIdeal.Blocks1
import proofs.«423997_j8272107012808_3_alg».proof.Proof.Spec
import proofs.«423997_j8272107012808_3_alg».proof.Proof.LibPlainDot
import proofs.«423997_j8272107012808_3_alg».proof.Proof.LibBlockSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Lib.BlockSum

variable (V : (c : Dev nD) → (b : Ref sig .tc) → Buf (Elt Ideal) ((c : Thread nD τ).loc b))

theorem comb1_match (X : Cert.Spec.Arr2 16384 4096) (W : Cert.Spec.Arr2 4096 4096) (b : Cert.Spec.Arr2 1 4096) (K Vv : Cert.Spec.Arr2 16384 64)
    (acc : Vec Ideal S1024x512 .f32) (bb : Vec Ideal S1x512 .f32) (kb vb : Vec Ideal S1024x64 .f32)
    (p : Fin 1024) (q : Fin 512) (r : Fin 16384) (n : Fin 4096) (J : ℕ) (hJ : J < 8) (hn : n.val = J * 512 + q.val)
    (hacc : ∀ (q' : Fin 512) (m : Fin 4096), m.val = J * 512 + q'.val →
      (acc (ix2 p q') : EReal) = ∑ d : Fin 4096, X (ix2 r d) * W (ix2 d m))
    (hbb : ∀ (q' : Fin 512) (m : Fin 4096), m.val = J * 512 + q'.val → (bb (ix2 0 q') : EReal) = b (ix2 0 m))
    (hkb : ∀ h : Fin 64, (kb (ix2 p h) : EReal) = K (ix2 r h))
    (hvb : ∀ h : Fin 64, (vb (ix2 p h) : EReal) = Vv (ix2 r h)) :
    Cert.Spec.smax (fun h =>
          ((acc (ix2 p ⟨(q.val / 64) * 64 + h.val, by have := q.isLt; have := h.isLt; omega⟩) : EReal)
            + (bb (ix2 0 ⟨(q.val / 64) * 64 + h.val, by have := q.isLt; have := h.isLt; omega⟩) : EReal))
          * (kb (ix2 p h) : EReal) * Cert.Spec.eighth)
        ⟨q.val % 64, Nat.mod_lt _ (by decide)⟩
      * (vb (ix2 p ⟨q.val % 64, Nat.mod_lt _ (by decide)⟩) : EReal)
    = Cert.Spec.combOut X W b K Vv (ix2 r n) := by
  have hq := q.isLt
  show _ = Cert.Spec.smax (fun h => Cert.Spec.mmb X W b r ⟨(n.val / 64) * 64 + h.val, _⟩ * K (ix2 r h) * Cert.Spec.eighth)
      ⟨n.val % 64, _⟩ * Vv (ix2 r ⟨n.val % 64, _⟩)
  have hl : (⟨q.val % 64, Nat.mod_lt _ (by decide)⟩ : Fin 64) = ⟨n.val % 64, Nat.mod_lt _ (by decide)⟩ := Fin.ext (by show q.val % 64 = n.val % 64; omega)
  refine congrArg₂ (fun a b : EReal => a * b) ?_ ((hvb _).trans (congrArg (fun z => Vv (ix2 r z)) hl))
  refine congrArg₂ Cert.Spec.smax (funext fun h => ?_) hl
  have hh := h.isLt
  refine congrArg₂ (fun a b : EReal => a * b) (congrArg₂ (fun a b : EReal => a * b) ?_ (hkb h)) rfl
  unfold Cert.Spec.mmb
  exact congrArg₂ (fun a b : EReal => a + b)
    (hacc _ ⟨(n.val / 64) * 64 + h.val, by omega⟩ (by show n.val / 64 * 64 + h.val = J * 512 + (q.val / 64 * 64 + h.val); omega))
    (hbb _ ⟨(n.val / 64) * 64 + h.val, by omega⟩ (by show n.val / 64 * 64 + h.val = J * 512 + (q.val / 64 * 64 + h.val); omega))

abbrev comb1 (c : Dev nD) : Cert.Spec.Arr2 16384 4096 :=
  Cert.Spec.combOut (xarr1 V c) (warr1 V c) (barr1 V c) (karr1 V c) (varr1 V c)

theorem flushed1_5_eq (c : Dev nD) (t : Fin cfg1.N) (hf : (cfg1.win 5).flush t = true) :
    (dat1 (F := Ideal) V c).flushed 5 t = ((cfg1.win 5).blk t).view.read (Elt Ideal) (comb1 V c) := by
  have h3 : t.val % 4 = 3 := (flush1_5 t).mp hf
  have h0 : ¬t.val % 4 = 0 := by omega
  have hN : t.val < 512 := lt_of_lt_of_eq t.isLt (show cfg1.N = 512 from N_1)
  show (cfg1.win 5).cut (grid1.coords t) ((dat1 V c).after 5 t) = _
  rw [after1_5, outsAt1_C V c t h0 h3]
  dsimp only [rb1, runC1]
  funext j
  obtain ⟨p, q, rfl⟩ : ∃ (p : Fin 1024) (q : Fin 512), j = ix2 p q := ⟨j 0, j 1, eq_ix2 j⟩
  refine Eq.trans ?_ (read_blk1_5 c (comb1 V c) t p q).symm
  refine (congrFun (outC1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h3) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 p q)).trans ?_
  refine (k1_pay3_apply _ (iblk1 V c 2 t) (iblk1 V c 3 t) (iblk1 V c 4 t) p q).trans ?_
  exact comb1_match (xarr1 V c) (warr1 V c) (barr1 V c) (karr1 V c) (varr1 V c) _ (iblk1 V c 2 t) (iblk1 V c 3 t) (iblk1 V c 4 t)
    p q ⟨(t.val / 32) * 1024 + p.val, by have := p.isLt; omega⟩ ⟨((t.val / 4) % 8) * 512 + q.val, by have := q.isLt; omega⟩
    (t.val / 4 % 8) (by omega) rfl
    (fun q' m hm => acc1_last V c t h3 p q' _ m rfl hm)
    (fun q' m hm => bblk1_apply V c t 0 q' 0 m (by show (0 : ℕ) = 0 * 1 + 0; rfl) hm)
    (fun h => kblk1_apply V c t p h _ h rfl (by show h.val = 0 * 64 + h.val; omega))
    (fun h => vblk1_apply V c t p h _ h rfl (by show h.val = 0 * 64 + h.val; omega))

theorem final1_5 (c : Dev nD) :
    ((dat1 (F := Ideal) V c).arrAt 5 cfg1.N : S16384x4096.Idx → EReal)
      = Cert.Spec.combOut (V c main_v1) (V c main_v3) (V c main_v16) (V c main_v15) (V c main_v12_1) :=
  (dat1 (F := Ideal) V c).arrAt_eq_of_cover 5 (comb1 V c) (flushed1_5_eq V c) (cover1_5 c)

end Cert.KernelIdeal.Hand

end
-- ==== Proof.KernelIdeal.HostVal.lean ====
import proofs.«423997_j8272107012808_3_alg».proof.Proof.Gen.KernelIdeal.Launch
import proofs.«423997_j8272107012808_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVal

open Cert.KernelIdeal Cert.KernelIdeal.Gen Idealize.ShloMosaic Idealize.ShloMosaic.TcCoe Idealize.SL.Sem
open Idealize.ShloMosaic.ValueIdx

theorem reshape_eq_rows (X : S256x64x4096.Idx → EReal) (h : S256x64x4096.ShapeCasts S16384x4096) :
    shapeCast S16384x4096 X h = Cert.Spec.rows X := by
  funext i
  obtain ⟨r, k, rfl⟩ : ∃ (r : Fin 16384) (k : Fin 4096), i = ix2 r k := ⟨i 0, i 1, eq_ix2 i⟩
  refine (shapeCast_apply X h (ix2 r k)
    (ix3 ⟨r.val / 64, by have := r.isLt; omega⟩ ⟨r.val % 64, Nat.mod_lt _ (by decide)⟩ k) ?_).trans rfl
  rewrite [Shape.rowMajor_val_three, Shape.rowMajor_val_two]
  show (r.val / 64 * 64 + r.val % 64) * 4096 + k.val = r.val * 4096 + k.val
  omega

theorem reshape_eq_unrows (Y : S16384x4096.Idx → EReal) (h : S16384x4096.ShapeCasts S256x64x4096) :
    shapeCast S256x64x4096 Y h = Cert.Spec.unrows Y := by
  funext i
  obtain ⟨b, s, n, rfl⟩ : ∃ (b : Fin 256) (s : Fin 64) (n : Fin 4096), i = ix3 b s n := ⟨i 0, i 1, i 2, eq_ix3 i⟩
  refine (shapeCast_apply Y h (ix3 b s n)
    (ix2 ⟨b.val * 64 + s.val, by have := b.isLt; have := s.isLt; omega⟩ n) ?_).trans rfl
  rewrite [Shape.rowMajor_val_three, Shape.rowMajor_val_two]
  show (b.val * 64 + s.val) * 4096 + n.val = (b.val * 64 + s.val) * 4096 + n.val
  rfl

theorem reshape_eq_asRow_4096 (a : S4096.Idx → EReal) (h : S4096.ShapeCasts S1x4096) :
    shapeCast S1x4096 a h = Cert.Spec.asRow a := by
  funext i
  obtain ⟨z, n, rfl⟩ : ∃ (z : Fin 1) (n : Fin 4096), i = ix2 z n := ⟨i 0, i 1, eq_ix2 i⟩
  refine (shapeCast_apply a h (ix2 z n) (ix1 n) ?_).trans rfl
  rewrite [Shape.rowMajor_val_one, Shape.rowMajor_val_two]
  show n.val = z.val * 4096 + n.val
  have := z.isLt
  omega

theorem transpose_eq_tr_4096 (W : S4096x4096.Idx → EReal) (h : S4096x4096.Transposes [1, 0] S4096x4096) :
    transpose S4096x4096 [1, 0] W h = Cert.Spec.tr W := by
  funext i
  obtain ⟨a, b, rfl⟩ : ∃ (a : Fin 4096) (b : Fin 4096), i = ix2 a b := ⟨i 0, i 1, eq_ix2 i⟩
  exact (transpose_apply [1, 0] W h (ix2 a b) (ix2 b a) (fun c => match c with
    | ⟨0, _⟩ => rfl
    | ⟨1, _⟩ => rfl)).trans rfl

theorem transpose_eq_tr_64 (W : S64x4096.Idx → EReal) (h : S64x4096.Transposes [1, 0] S4096x64) :
    transpose S4096x64 [1, 0] W h = Cert.Spec.tr W := by
  funext i
  obtain ⟨a, b, rfl⟩ : ∃ (a : Fin 4096) (b : Fin 64), i = ix2 a b := ⟨i 0, i 1, eq_ix2 i⟩
  exact (transpose_apply [1, 0] W h (ix2 a b) (ix2 b a) (fun c => match c with
    | ⟨0, _⟩ => rfl
    | ⟨1, _⟩ => rfl)).trans rfl

theorem concatenate_eq_sideBySide (A B : S4096x64.Idx → EReal) (h : Shape.Concatenates [S4096x64, S4096x64] S4096x128 1) :
    concatenate S4096x128 1 [⟨S4096x64, A⟩, ⟨S4096x64, B⟩] h = Cert.Spec.sideBySide A B := by
  funext i
  obtain ⟨k, e, rfl⟩ : ∃ (k : Fin 4096) (e : Fin 128), i = ix2 k e := ⟨i 0, i 1, eq_ix2 i⟩
  by_cases he : e.val < 64
  · have hs : Cert.Spec.sideBySide A B (ix2 k e) = A (ix2 k ⟨e.val, he⟩) := by
      unfold Cert.Spec.sideBySide
      exact dif_pos he
    refine (concatenate_pair_apply_left (1 : Fin S4096x128.rank) A B h (ix2 k e) rfl (ix2 k ⟨e.val, he⟩) (fun c => match c with
      | ⟨0, _⟩ => rfl
      | ⟨1, _⟩ => rfl)).trans hs.symm
  · have hlt : e.val - 64 < 64 := by have := e.isLt; omega
    have hs : Cert.Spec.sideBySide A B (ix2 k e) = B (ix2 k ⟨e.val - 64, hlt⟩) := by
      unfold Cert.Spec.sideBySide
      exact dif_neg he
    refine (concatenate_pair_apply_right (1 : Fin S4096x128.rank) A B h (ix2 k e) rfl rfl (ix2 k ⟨e.val - 64, hlt⟩) (fun c => match c with
      | ⟨0, _⟩ => fun _ => rfl
      | ⟨1, _⟩ => fun hc => absurd rfl hc) ?_).trans hs.symm
    show e.val - 64 + 64 = e.val
    omega

theorem reshape_concatenate_eq_endToEnd (a b : S64.Idx → EReal) (hc : Shape.Concatenates [S64, S64] S128 0)
    (h : S128.ShapeCasts S1x128) :
    shapeCast S1x128 (concatenate S128 0 [⟨S64, a⟩, ⟨S64, b⟩] hc) h = Cert.Spec.endToEnd a b := by
  funext i
  obtain ⟨z, e, rfl⟩ : ∃ (z : Fin 1) (e : Fin 128), i = ix2 z e := ⟨i 0, i 1, eq_ix2 i⟩
  refine (shapeCast_apply (concatenate S128 0 [⟨S64, a⟩, ⟨S64, b⟩] hc) h (ix2 z e) (ix1 e) ?_).trans ?_
  · rewrite [Shape.rowMajor_val_one, Shape.rowMajor_val_two]
    show e.val = z.val * 128 + e.val
    have := z.isLt
    omega
  by_cases he : e.val < 64
  · have hs : Cert.Spec.endToEnd a b (ix2 z e) = a (ix1 ⟨e.val, he⟩) := by
      unfold Cert.Spec.endToEnd
      exact dif_pos he
    refine (concatenate_pair_apply_left (0 : Fin S128.rank) a b hc (ix1 e) rfl (ix1 ⟨e.val, he⟩) (fun c => match c with
      | ⟨0, _⟩ => rfl)).trans hs.symm
  · have hlt : e.val - 64 < 64 := by have := e.isLt; omega
    have hs : Cert.Spec.endToEnd a b (ix2 z e) = b (ix1 ⟨e.val - 64, hlt⟩) := by
      unfold Cert.Spec.endToEnd
      exact dif_neg he
    refine (concatenate_pair_apply_right (0 : Fin S128.rank) a b hc (ix1 e) rfl rfl (ix1 ⟨e.val - 64, hlt⟩) (fun c => match c with
      | ⟨0, _⟩ => fun hc' => absurd rfl hc') ?_).trans hs.symm
    show e.val - 64 + 64 = e.val
    omega

theorem reshape_transpose_reshape_eq_swapInBatch (K2 : S16384x64.Idx → EReal) (h1 : S16384x64.ShapeCasts S256x64x64)
    (ht : S256x64x64.Transposes [0, 2, 1] S256x64x64) (h2 : S256x64x64.ShapeCasts S16384x64) :
    shapeCast S16384x64 (transpose S256x64x64 [0, 2, 1] (shapeCast S256x64x64 K2 h1) ht) h2 = Cert.Spec.swapInBatch K2 := by
  funext i
  obtain ⟨r, c, rfl⟩ : ∃ (r : Fin 16384) (c : Fin 64), i = ix2 r c := ⟨i 0, i 1, eq_ix2 i⟩
  have hb : r.val / 64 < 256 := by have := r.isLt; omega
  have hs : r.val % 64 < 64 := Nat.mod_lt _ (by decide)
  have hrow : r.val / 64 * 64 + c.val < 16384 := by have := r.isLt; have := c.isLt; omega
  refine (shapeCast_apply _ h2 (ix2 r c) (ix3 ⟨r.val / 64, hb⟩ ⟨r.val % 64, hs⟩ c) ?_).trans ?_
  · rewrite [Shape.rowMajor_val_three, Shape.rowMajor_val_two]
    show (r.val / 64 * 64 + r.val % 64) * 64 + c.val = r.val * 64 + c.val
    omega
  refine (transpose_apply [0, 2, 1] _ ht (ix3 ⟨r.val / 64, hb⟩ ⟨r.val % 64, hs⟩ c) (ix3 ⟨r.val / 64, hb⟩ c ⟨r.val % 64, hs⟩)
    (fun d => match d with
      | ⟨0, _⟩ => rfl
      | ⟨1, _⟩ => rfl
      | ⟨2, _⟩ => rfl)).trans ?_
  refine (shapeCast_apply K2 h1 (ix3 ⟨r.val / 64, hb⟩ c ⟨r.val % 64, hs⟩) (ix2 ⟨r.val / 64 * 64 + c.val, hrow⟩ ⟨r.val % 64, hs⟩) ?_).trans rfl
  rewrite [Shape.rowMajor_val_three, Shape.rowMajor_val_two]
  show (r.val / 64 * 64 + c.val) * 64 + r.val % 64 = (r.val / 64 * 64 + c.val) * 64 + r.val % 64
  rfl

theorem host0_v1 (Vl : Valuation τ sig (Elt Ideal)) :
    (StableHlo.after (hostOps0 (F := Ideal)) Vl (Proc.devRef .tc main_v1) : S16384x4096.Idx → EReal)
      = Cert.Spec.rows (Vl (Proc.devRef .tc main_arg0)) := by
  have e : (StableHlo.after (hostOps0 (F := Ideal)) Vl (Proc.devRef .tc main_v1) : S16384x4096.Idx → EReal)
      = shapeCast S16384x4096 (Vl (Proc.devRef .tc main_arg0) : S256x64x4096.Idx → EReal) shapeCasts_S256x64x4096_S16384x4096 := by
    after_results
    rfl
  exact e.trans (reshape_eq_rows _ _)

theorem host0_v3 (Vl : Valuation τ sig (Elt Ideal)) :
    (StableHlo.after (hostOps0 (F := Ideal)) Vl (Proc.devRef .tc main_v3) : S4096x4096.Idx → EReal)
      = Cert.Spec.tr (Vl (Proc.devRef .tc main_arg1)) := by
  have e : (StableHlo.after (hostOps0 (F := Ideal)) Vl (Proc.devRef .tc main_v3) : S4096x4096.Idx → EReal)
      = transpose S4096x4096 [1, 0] (Vl (Proc.devRef .tc main_arg1) : S4096x4096.Idx → EReal) transposes_S4096x4096_S4096x4096_1_0 := by
    after_results
    rfl
  exact e.trans (transpose_eq_tr_4096 _ _)

theorem host0_v7 (Vl : Valuation τ sig (Elt Ideal)) :
    (StableHlo.after (hostOps0 (F := Ideal)) Vl (Proc.devRef .tc main_v7) : S4096x128.Idx → EReal)
      = Cert.Spec.sideBySide (Cert.Spec.tr (Vl (Proc.devRef .tc main_arg3))) (Cert.Spec.tr (Vl (Proc.devRef .tc main_arg5))) := by
  have e : (StableHlo.after (hostOps0 (F := Ideal)) Vl (Proc.devRef .tc main_v7) : S4096x128.Idx → EReal)
      = concatenate S4096x128 1
          [⟨S4096x64, transpose S4096x64 [1, 0] (Vl (Proc.devRef .tc main_arg3) : S64x4096.Idx → EReal) transposes_S64x4096_S4096x64_1_0⟩,
           ⟨S4096x64, transpose S4096x64 [1, 0] (Vl (Proc.devRef .tc main_arg5) : S64x4096.Idx → EReal) transposes_S64x4096_S4096x64_1_0⟩]
          concatenates_S4096x64_S4096x64_S4096x128_d1 := by
    after_results
    rfl
  rw [e, transpose_eq_tr_64, transpose_eq_tr_64]
  exact concatenate_eq_sideBySide _ _ _

theorem host0_v10 (Vl : Valuation τ sig (Elt Ideal)) :
    (StableHlo.after (hostOps0 (F := Ideal)) Vl (Proc.devRef .tc main_v10) : S4096x4096.Idx → EReal)
      = Cert.Spec.tr (Vl (Proc.devRef .tc main_arg7)) := by
  have e : (StableHlo.after (hostOps0 (F := Ideal)) Vl (Proc.devRef .tc main_v10) : S4096x4096.Idx → EReal)
      = transpose S4096x4096 [1, 0] (Vl (Proc.devRef .tc main_arg7) : S4096x4096.Idx → EReal) transposes_S4096x4096_S4096x4096_1_0 := by
    after_results
    rfl
  exact e.trans (transpose_eq_tr_4096 _ _)

theorem host0_v11 (Vl : Valuation τ sig (Elt Ideal)) :
    (StableHlo.after (hostOps0 (F := Ideal)) Vl (Proc.devRef .tc main_v11) : S1x128.Idx → EReal)
      = Cert.Spec.endToEnd (Vl (Proc.devRef .tc main_arg4)) (Vl (Proc.devRef .tc main_arg6)) := by
  have e : (StableHlo.after (hostOps0 (F := Ideal)) Vl (Proc.devRef .tc main_v11) : S1x128.Idx → EReal)
      = shapeCast S1x128 (concatenate S128 0
          [⟨S64, (Vl (Proc.devRef .tc main_arg4) : S64.Idx → EReal)⟩, ⟨S64, (Vl (Proc.devRef .tc main_arg6) : S64.Idx → EReal)⟩]
          concatenates_S64_S64_S128_d0) shapeCasts_S128_S1x128 := by
    after_results
    rfl
  exact e.trans (reshape_concatenate_eq_endToEnd _ _ _ _)

theorem host1_v15 (Vl : Valuation τ sig (Elt Ideal)) :
    (StableHlo.after (hostOps1 (F := Ideal)) Vl (Proc.devRef .tc main_v15) : S16384x64.Idx → EReal)
      = Cert.Spec.swapInBatch (Vl (Proc.devRef .tc main_v12_0)) := by
  have e : (StableHlo.after (hostOps1 (F := Ideal)) Vl (Proc.devRef .tc main_v15) : S16384x64.Idx → EReal)
      = shapeCast S16384x64 (transpose S256x64x64 [0, 2, 1]
          (shapeCast S256x64x64 (Vl (Proc.devRef .tc main_v12_0) : S16384x64.Idx → EReal) shapeCasts_S16384x64_S256x64x64)
          transposes_S256x64x64_S256x64x64_0_2_1) shapeCasts_S256x64x64_S16384x64 := by
    after_results
    rfl
  exact e.trans (reshape_transpose_reshape_eq_swapInBatch _ _ _ _)

theorem host1_v16 (Vl : Valuation τ sig (Elt Ideal)) :
    (StableHlo.after (hostOps1 (F := Ideal)) Vl (Proc.devRef .tc main_v16) : S1x4096.Idx → EReal)
      = Cert.Spec.asRow (Vl (Proc.devRef .tc main_arg2)) := by
  have e : (StableHlo.after (hostOps1 (F := Ideal)) Vl (Proc.devRef .tc main_v16) : S1x4096.Idx → EReal)
      = shapeCast S1x4096 (Vl (Proc.devRef .tc main_arg2) : S4096.Idx → EReal) shapeCasts_S4096_S1x4096 := by
    after_results
    rfl
  exact e.trans (reshape_eq_asRow_4096 _ _)

theorem host2_v18 (Vl : Valuation τ sig (Elt Ideal)) :
    (StableHlo.after (hostOps2 (F := Ideal)) Vl (Proc.devRef .tc main_v18) : S1x4096.Idx → EReal)
      = Cert.Spec.asRow (Vl (Proc.devRef .tc main_arg8)) := by
  have e : (StableHlo.after (hostOps2 (F := Ideal)) Vl (Proc.devRef .tc main_v18) : S1x4096.Idx → EReal)
      = shapeCast S1x4096 (Vl (Proc.devRef .tc main_arg8) : S4096.Idx → EReal) shapeCasts_S4096_S1x4096 := by
    after_results
    rfl
  exact e.trans (reshape_eq_asRow_4096 _ _)

theorem host3_v20 (Vl : Valuation τ sig (Elt Ideal)) :
    (StableHlo.after (hostOps3 (F := Ideal)) Vl (Proc.devRef .tc main_v20) : S256x64x4096.Idx → EReal)
      = Cert.Spec.unrows (Vl (Proc.devRef .tc main_v19)) := by
  have e : (StableHlo.after (hostOps3 (F := Ideal)) Vl (Proc.devRef .tc main_v20) : S256x64x4096.Idx → EReal)
      = shapeCast S256x64x4096 (Vl (Proc.devRef .tc main_v19) : S16384x4096.Idx → EReal) shapeCasts_S16384x4096_S256x64x4096 := by
    after_results
    rfl
  exact e.trans (reshape_eq_unrows _ _)

end Cert.KernelIdeal.HostVal

end
-- ==== Proof.KernelIdeal.Val2Pieces.lean ====
import proofs.«423997_j8272107012808_3_alg».proof.Proof.KernelIdeal.Reg2
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

theorem hzero2 : (![0, 0] : Fin 2 → Nat) = fun _ => 0 := funext fun a => by fin_cases a <;> rfl

section
variable (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)

section
variable (hc0 : cond2_0 i) (hc1 : ¬cond2_1 i) (x0 : Vec F S1024x1024 .bf16) (x1 : Vec F S1024x1024 .bf16) (x2 : Vec F S1x1024 .f32)
theorem sout2_A_eq : VS2_0.read (Elt F) (VS2_0.writes (Elt F) VS2_0.junk (kernelRun2_A c i arg3 harg3 arg4 harg4 arg5 harg5 arg6 harg6 arg7 harg7 hc0 hc1 x0 x1 x2).2.1) = k2_pay2 (k2_pay1 (F := F)) x0 x1 := by
  rw [View.read_writes_eq_canon _ _ _ (scover2_A_0 c i arg3 harg3 arg4 harg4 arg5 harg5 arg6 harg6 arg7 harg7 hc0 hc1 x0 x1 x2)]
  unfold kernelRun2_A
  dsimp only
  try sl_unfold_words
  rw [View.canon_cons_unit_zero (S := S1024x1024) hzero2, View.readCov_unit_zero (S := S1024x1024) _ hzero2]
  simp only [View.readAt_eq_ld, harg3.read_unread, harg4.read_unread, View.ld_unit_zero (S := S1024x1024) hzero2]

end

section
variable (hc0 : ¬cond2_0 i) (hc1 : ¬cond2_1 i) (x0 : Vec F S1024x1024 .bf16) (x1 : Vec F S1024x1024 .bf16) (x2 : Vec F S1x1024 .f32) (xs0 : Vec F S1024x1024 .f32)
theorem sout2_B_eq : VS2_0.read (Elt F) (VS2_0.writes (Elt F) VS2_0.junk (kernelRun2_B c i arg3 harg3 arg4 harg4 arg5 harg5 arg6 harg6 arg7 harg7 hc0 hc1 x0 x1 x2 xs0).2.1) = k2_pay2 xs0 x0 x1 := by
  rw [View.read_writes_eq_canon _ _ _ (scover2_B_0 c i arg3 harg3 arg4 harg4 arg5 harg5 arg6 harg6 arg7 harg7 hc0 hc1 x0 x1 x2 xs0)]
  unfold kernelRun2_B
  dsimp only
  try sl_unfold_words
  rw [View.canon_unit_zero hzero2]
  simp only [View.readAt_eq_ld, harg3.read_unread, harg4.read_unread, harg7.read_unread, View.ld_unit_zero (S := S1024x1024) hzero2]

end

section
variable (hc0 : ¬cond2_0 i) (hc1 : cond2_1 i) (x0 : Vec F S1024x1024 .bf16) (x1 : Vec F S1024x1024 .bf16) (x2 : Vec F S1x1024 .f32) (xs0 : Vec F S1024x1024 .f32)
theorem sout2_C_eq : VS2_0.read (Elt F) (VS2_0.writes (Elt F) VS2_0.junk (kernelRun2_C c i arg3 harg3 arg4 harg4 arg5 harg5 arg6 harg6 arg7 harg7 hc0 hc1 x0 x1 x2 xs0).2.1) = k2_pay2 xs0 x0 x1 := by
  rw [View.read_writes_eq_canon _ _ _ (scover2_C_0 c i arg3 harg3 arg4 harg4 arg5 harg5 arg6 harg6 arg7 harg7 hc0 hc1 x0 x1 x2 xs0)]
  unfold kernelRun2_C
  dsimp only
  try sl_unfold_words
  rw [View.canon_unit_zero hzero2]
  simp only [View.readAt_eq_ld, harg3.read_unread, harg4.read_unread, harg7.read_unread, View.ld_unit_zero (S := S1024x1024) hzero2]

theorem out2_C_eq : VO2_3.read (Elt F) (VO2_3.writes (Elt F) VO2_3.junk (kernelRun2_C c i arg3 harg3 arg4 harg4 arg5 harg5 arg6 harg6 arg7 harg7 hc0 hc1 x0 x1 x2 xs0).1) = k2_pay3 (k2_pay2 xs0 x0 x1) x2 := by
  rw [View.read_writes_eq_canon _ _ _ (cover2_C_3 c i arg3 harg3 arg4 harg4 arg5 harg5 arg6 harg6 arg7 harg7 hc0 hc1 x0 x1 x2 xs0)]
  unfold kernelRun2_C
  dsimp only
  try sl_unfold_words
  rw [View.canon_unit_zero hzero2, View.readCov_unit_zero (S := S1024x1024) _ hzero2]
  simp only [View.readAt_eq_ld, harg3.read_unread, harg4.read_unread, harg5.read_unread, harg7.read_unread,
    View.ld_unit_zero (S := S1024x1024) hzero2, View.ld_unit_zero (S := S1x1024) hzero2]
end

end

end Cert.KernelIdeal.Hand

end
-- ==== Proof.KernelIdeal.Val2Acc.lean ====
import proofs.«423997_j8272107012808_3_alg».proof.Proof.KernelIdeal.Val2Pieces
import proofs.«423997_j8272107012808_3_alg».proof.Proof.KernelIdeal.Payloads
import proofs.«423997_j8272107012808_3_alg».proof.Proof.LibBlockSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Lib.BlockSum

variable (V : (c : Dev nD) → (b : Ref sig .tc) → Buf (Elt Ideal) ((c : Thread nD τ).loc b))

abbrev xarr2 (c : Dev nD) : Vec Ideal S16384x4096 .bf16 := V c main_v17
abbrev warr2 (c : Dev nD) : Vec Ideal S4096x4096 .bf16 := V c main_v10
abbrev barr2 (c : Dev nD) : Vec Ideal S1x4096 .f32 := V c main_v18

abbrev xblk2 (c : Dev nD) (t : Fin cfg2.N) : Vec Ideal S1024x1024 .bf16 := iblk2 V c 0 t
abbrev wblk2 (c : Dev nD) (t : Fin cfg2.N) : Vec Ideal S1024x1024 .bf16 := iblk2 V c 1 t
abbrev bblk2 (c : Dev nD) (t : Fin cfg2.N) : Vec Ideal S1x1024 .f32 := iblk2 V c 2 t

theorem idx2_closed : ∀ t : Fin cfg2.N,
    win2_0.index t (0 : Fin 2) = t.val / 16 ∧ win2_0.index t (1 : Fin 2) = t.val % 4
    ∧ win2_1.index t (0 : Fin 2) = t.val % 4 ∧ win2_1.index t (1 : Fin 2) = t.val / 4 % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

theorem xblk2_apply (c : Dev nD) (t : Fin cfg2.N) (p k : Fin 1024) (r : Fin 16384) (d : Fin 4096)
    (hr : r.val = t.val / 16 * 1024 + p.val) (hd : d.val = t.val % 4 * 1024 + k.val) :
    xblk2 V c t (ix2 p k) = xarr2 V c (ix2 r d) := by
  obtain ⟨e0, e1, -⟩ := idx2_closed t
  show iblk2 V c 0 t (ix2 p k) = _
  unfold iblk2
  rw [View.read_apply]
  show V c main_v17 _ = V c main_v17 _
  congr 1
  funext a
  apply Fin.ext
  match a with
  | ⟨0, _⟩ => show win2_0.index t 0 * 1024 + 1 * p.val = r.val; rw [e0, hr]; omega
  | ⟨1, _⟩ => show win2_0.index t 1 * 1024 + 1 * k.val = d.val; rw [e1, hd]; omega

theorem wblk2_apply (c : Dev nD) (t : Fin cfg2.N) (k q : Fin 1024) (d : Fin 4096) (n : Fin 4096)
    (hd : d.val = t.val % 4 * 1024 + k.val) (hn : n.val = t.val / 4 % 4 * 1024 + q.val) :
    wblk2 V c t (ix2 k q) = warr2 V c (ix2 d n) := by
  obtain ⟨-, -, e0, e1, -⟩ := idx2_closed t
  show iblk2 V c 1 t (ix2 k q) = _
  unfold iblk2
  rw [View.read_apply]
  show V c main_v10 _ = V c main_v10 _
  congr 1
  funext a
  apply Fin.ext
  match a with
  | ⟨0, _⟩ => show win2_1.index t 0 * 1024 + 1 * k.val = d.val; rw [e0, hd]; omega
  | ⟨1, _⟩ => show win2_1.index t 1 * 1024 + 1 * q.val = n.val; rw [e1, hn]; omega

theorem bblk2_apply (c : Dev nD) (t : Fin cfg2.N) (q : Fin 1024) (n : Fin 4096)
    (hn : n.val = t.val / 4 % 4 * 1024 + q.val) :
    bblk2 V c t (ix2 0 q) = barr2 V c (ix2 0 n) := by
  obtain ⟨-, -, -, -, e0, e1, -⟩ := idx2_closed t
  show iblk2 V c 2 t (ix2 0 q) = _
  unfold iblk2
  rw [View.read_apply]
  show V c main_v18 _ = V c main_v18 _
  congr 1
  funext a
  apply Fin.ext
  match a with
  | ⟨0, _⟩ => show win2_2.index t 0 * 1 + 1 * (0 : Fin 1).val = (0 : Fin 1).val; rw [e0]; rfl
  | ⟨1, _⟩ => show win2_2.index t 1 * 1024 + 1 * q.val = n.val; rw [e1, hn]; omega

def dotTerm2 (c : Dev nD) (r : Fin 16384) (n : Fin 4096) (d : Fin 4096) : EReal := xarr2 V c (ix2 r d) * warr2 V c (ix2 d n)

theorem acc2_step (c : Dev nD) (t : Fin cfg2.N) (p q : Fin 1024) (r : Fin 16384) (n : Fin 4096)
    (hr : r.val = t.val / 16 * 1024 + p.val) (hn : n.val = t.val / 4 % 4 * 1024 + q.val) :
    partialSum (dotTerm2 V c r n) (t.val % 4 * 1024) + ∑ k : Fin 1024, xblk2 V c t (ix2 p k) * wblk2 V c t (ix2 k q)
      = partialSum (dotTerm2 V c r n) ((t.val % 4 + 1) * 1024) := by
  have h4 : t.val % 4 < 4 := Nat.mod_lt _ (by decide)
  rw [← partialSum_add_block_eq (dotTerm2 V c r n) (t.val % 4 * 1024) 1024 ((t.val % 4 + 1) * 1024) (by omega) (by omega)]
  refine congrArg (partialSum (dotTerm2 V c r n) (t.val % 4 * 1024) + ·) ?_
  refine Finset.sum_congr rfl fun k _ => ?_
  have hk := k.isLt
  unfold dotTerm2
  rw [xblk2_apply V c t p k r ⟨t.val % 4 * 1024 + k.val, by omega⟩ hr rfl,
    wblk2_apply V c t k q ⟨t.val % 4 * 1024 + k.val, by omega⟩ n rfl hn]

theorem acc2_eq (c : Dev nD) : ∀ (n : ℕ) (hn : n < cfg2.N) (p q : Fin 1024) (r : Fin 16384) (col : Fin 4096),
    r.val = n / 16 * 1024 + p.val → col.val = n / 4 % 4 * 1024 + q.val →
    (outsAt2 V c n hn).2 (ix2 p q) = partialSum (dotTerm2 V c r col) ((n % 4 + 1) * 1024)
  | 0, hn, p, q, r, col, hr, hc => by
    have h0 : (⟨0, hn⟩ : Fin cfg2.N).val % 4 = 0 := rfl
    have h1 : ¬(⟨0, hn⟩ : Fin cfg2.N).val % 4 = 3 := by show ¬0 % 4 = 3; decide
    rw [outsAt2_A V c ⟨0, hn⟩ h0 h1]
    dsimp only [rb2, runA2]
    refine (congrFun (sout2_A_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr h0) (fun h => h1 ((hcond2_1 ⟨0, hn⟩).mp h)) (xblk2 V c ⟨0, hn⟩) (wblk2 V c ⟨0, hn⟩) (bblk2 V c ⟨0, hn⟩)) (ix2 p q)).trans ?_
    refine (k2_pay2_apply _ _ _ p q).trans ?_
    rw [k2_pay1_apply]
    have hs := acc2_step V c ⟨0, hn⟩ p q r col hr hc
    rw [show (⟨0, hn⟩ : Fin cfg2.N).val % 4 * 1024 = 0 from rfl, partialSum_zero] at hs
    exact hs
  | n + 1, hn, p, q, r, col, hr, hc => by
    have hN : n + 1 < 256 := lt_of_lt_of_eq hn (show cfg2.N = 256 from N_2)
    by_cases h0 : (⟨n + 1, hn⟩ : Fin cfg2.N).val % 4 = 0
    · have h1 : ¬(⟨n + 1, hn⟩ : Fin cfg2.N).val % 4 = 3 := by omega
      rw [outsAt2_A V c ⟨n + 1, hn⟩ h0 h1]
      dsimp only [rb2, runA2]
      refine (congrFun (sout2_A_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (xblk2 V c ⟨n + 1, hn⟩) (wblk2 V c ⟨n + 1, hn⟩) (bblk2 V c ⟨n + 1, hn⟩)) (ix2 p q)).trans ?_
      refine (k2_pay2_apply _ _ _ p q).trans ?_
      rw [k2_pay1_apply]
      have hs := acc2_step V c ⟨n + 1, hn⟩ p q r col hr hc
      rw [show (⟨n + 1, hn⟩ : Fin cfg2.N).val % 4 * 1024 = 0 from by rw [h0], partialSum_zero] at hs
      exact hs
    · have hprev : (outsAt2 V c n (Nat.lt_of_succ_lt hn)).2 (ix2 p q) = partialSum (dotTerm2 V c r col) ((n + 1) % 4 * 1024) := by
        have hd : (n + 1) % 4 ≠ 0 := h0
        rw [acc2_eq c n (Nat.lt_of_succ_lt hn) p q r col (by omega) (by omega)]
        congr 1
        omega
      by_cases h1 : (⟨n + 1, hn⟩ : Fin cfg2.N).val % 4 = 3
      · rw [outsAt2_C V c ⟨n + 1, hn⟩ h0 h1]
        dsimp only [rb2, runC2]
        refine (congrFun (sout2_C_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (xblk2 V c ⟨n + 1, hn⟩) (wblk2 V c ⟨n + 1, hn⟩) (bblk2 V c ⟨n + 1, hn⟩) (outsAt2 V c n (Nat.lt_of_succ_lt hn)).2) (ix2 p q)).trans ?_
        refine (k2_pay2_apply _ _ _ p q).trans ?_
        rw [hprev]
        exact acc2_step V c ⟨n + 1, hn⟩ p q r col hr hc
      · rw [outsAt2_B V c ⟨n + 1, hn⟩ h0 h1]
        dsimp only [rb2, runB2]
        refine (congrFun (sout2_B_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (xblk2 V c ⟨n + 1, hn⟩) (wblk2 V c ⟨n + 1, hn⟩) (bblk2 V c ⟨n + 1, hn⟩) (outsAt2 V c n (Nat.lt_of_succ_lt hn)).2) (ix2 p q)).trans ?_
        refine (k2_pay2_apply _ _ _ p q).trans ?_
        rw [hprev]
        exact acc2_step V c ⟨n + 1, hn⟩ p q r col hr hc

end Cert.KernelIdeal.Hand

end
-- ==== Proof.KernelIdeal.Val2.lean ====
import proofs.«423997_j8272107012808_3_alg».proof.Proof.KernelIdeal.Val2Acc
import proofs.«423997_j8272107012808_3_alg».proof.Proof.Spec
import proofs.«423997_j8272107012808_3_alg».proof.Proof.LibPlainDot
import proofs.«423997_j8272107012808_3_alg».proof.Proof.LibBlockSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Lib.BlockSum

variable (V : (c : Dev nD) → (b : Ref sig .tc) → Buf (Elt Ideal) ((c : Thread nD τ).loc b))

theorem out2_at_C (c : Dev nD) (t : Fin cfg2.N) (h0 : ¬t.val % 4 = 0) (h1 : t.val % 4 = 3) (p q : Fin 1024) :
    (outsAt2 V c t.val t.isLt).1 (ix2 p q) = (outsAt2 V c t.val t.isLt).2 (ix2 p q) + bblk2 V c t (ix2 0 q) := by
  rw [outsAt2_C V c t h0 h1]
  dsimp only [rb2, runC2]
  refine (congrFun (out2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (xblk2 V c t) (wblk2 V c t) (bblk2 V c t) (outsAt2 V c (t.val - 1) (Nat.lt_of_le_of_lt (Nat.sub_le _ _) t.isLt)).2) (ix2 p q)).trans ?_
  refine (k2_pay3_apply _ _ p q).trans ?_
  refine congrArg (· + bblk2 V c t (ix2 0 q)) ?_
  exact (congrFun (sout2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (xblk2 V c t) (wblk2 V c t) (bblk2 V c t) (outsAt2 V c (t.val - 1) (Nat.lt_of_le_of_lt (Nat.sub_le _ _) t.isLt)).2) (ix2 p q)).symm

abbrev G2 (c : Dev nD) : Vec Ideal S16384x4096 .f32 := Cert.Spec.fOut (xarr2 V c) (warr2 V c) (barr2 V c)

theorem out2_val (c : Dev nD) (t : Fin cfg2.N) (h0 : ¬t.val % 4 = 0) (h1 : t.val % 4 = 3) (j : S1024x1024.Idx) (i : S16384x4096.Idx)
    (hi0 : (i 0).val = t.val / 16 * 1024 + (j 0).val) (hi1 : (i 1).val = t.val / 4 % 4 * 1024 + (j 1).val) :
    (outsAt2 V c t.val t.isLt).1 j = G2 V c i := by
  obtain ⟨p, q, rfl⟩ : ∃ (p q : Fin 1024), j = ix2 p q := ⟨j 0, j 1, eq_ix2 j⟩
  refine (out2_at_C V c t h0 h1 p q).trans ?_
  rw [acc2_eq V c t.val t.isLt p q ⟨(i 0).val, idx2_lt0 i⟩ ⟨(i 1).val, idx2_lt1 i⟩ hi0 hi1,
    show (t.val % 4 + 1) * 1024 = 4096 from by omega, partialSum_full,
    bblk2_apply V c t q ⟨(i 1).val, idx2_lt1 i⟩ hi1]
  rfl

theorem flushed2_3_eq (c : Dev nD) (t : Fin cfg2.N) (hf : (cfg2.win 3).flush t = true) :
    (dat2 V c).flushed 3 t = ((cfg2.win 3).blk t).view.read (Elt Ideal) (G2 V c) := by
  have h1 : t.val % 4 = 3 := (flush2_3 t).mp hf
  have h0 : ¬t.val % 4 = 0 := by omega
  obtain ⟨-, -, -, -, -, -, e0, e1⟩ := idx2_closed t
  show (cfg2.win 3).cut (grid2.coords t) ((dat2 V c).after 3 t) = _
  rw [after2_3]
  funext j
  show (outsAt2 V c t.val t.isLt).1 j = G2 V c (((cfg2.win 3).blk t).view.emb j)
  refine out2_val V c t h0 h1 j _ ?_ ?_
  · show win2_3.index t (0 : Fin 2) * 1024 + 1 * (j 0).val = _; rw [e0]; omega
  · show win2_3.index t (1 : Fin 2) * 1024 + 1 * (j 1).val = _; rw [e1]; omega

theorem mem_blk2_3 (t : Fin cfg2.N) (i : S16384x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v19).slice (win2_3.rect t)).set ↔ _
  rw [View.set_slice_whole, Rect.mem_set_unit]
  exact Iff.rfl

theorem covered2_3 (i : S16384x4096.Idx) :
    ∃ t : Fin cfg2.N, (cfg2.win 3).flush t = true ∧ i ∈ ((cfg2.win 3).blk t).view.set := by
  have hi0 : (i 0).val < 16384 := (i 0).isLt
  have hi1 : (i 1).val < 4096 := (i 1).isLt
  have hN : cfg2.N = 256 := N_2
  obtain ⟨t, ht⟩ : ∃ t : Fin cfg2.N, t.val = (i 0).val / 1024 * 16 + (i 1).val / 1024 * 4 + 3 :=
    ⟨⟨(i 0).val / 1024 * 16 + (i 1).val / 1024 * 4 + 3, by rw [hN]; omega⟩, rfl⟩
  obtain ⟨-, -, -, -, -, -, e0, e1⟩ := idx2_closed t
  refine ⟨t, (flush2_3 t).mpr (by rw [ht]; omega), ?_⟩
  rw [mem_blk2_3]
  intro a
  match a with
  | ⟨0, _⟩ => show win2_3.index t (0 : Fin 2) * 1024 ≤ (i 0).val ∧ (i 0).val < win2_3.index t (0 : Fin 2) * 1024 + 1024; rw [e0, ht]; omega
  | ⟨1, _⟩ => show win2_3.index t (1 : Fin 2) * 1024 ≤ (i 1).val ∧ (i 1).val < win2_3.index t (1 : Fin 2) * 1024 + 1024; rw [e1, ht]; omega

theorem final2_3 (c : Dev nD) :
    ((dat2 (F := Ideal) V c).arrAt 3 cfg2.N : S16384x4096.Idx → EReal) = Cert.Spec.fOut (V c main_v17) (V c main_v10) (V c main_v18) :=
  (dat2 V c).arrAt_eq_of_cover 3 (G2 V c) (flushed2_3_eq V c) covered2_3

end Cert.KernelIdeal.Hand

end
-- ==== Proof.KernelIdeal.Value.lean ====
import proofs.«423997_j8272107012808_3_alg».proof.Proof.KernelIdeal.Run
import proofs.«423997_j8272107012808_3_alg».proof.Proof.KernelIdeal.Val0
import proofs.«423997_j8272107012808_3_alg».proof.Proof.KernelIdeal.Val1
import proofs.«423997_j8272107012808_3_alg».proof.Proof.KernelIdeal.HostVal
import proofs.«423997_j8272107012808_3_alg».proof.Proof.KernelIdeal.Val2
import proofs.«423997_j8272107012808_3_alg».proof.Proof.Spec

set_option maxRecDepth 16384

noncomputable section

namespace Cert.KernelIdeal.Hand

open Cert.KernelIdeal Cert.KernelIdeal.Gen Cert.KernelIdeal.HostVal
open Idealize.ShloMosaic Idealize.ShloMosaic.TcCoe Idealize.SL.Sem

variable (m : (ℓ : Loc nD τ sig) → Buf (Elt Ideal) ℓ)

theorem in0_x (c : Dev nD) : (U1 m c main_v1 : S16384x4096.Idx → EReal) = Cert.Spec.rows (m ((c.tc : Thread nD τ).loc main_arg0)) := host0_v1 (W0 m c)
theorem in0_wq (c : Dev nD) : (U1 m c main_v3 : S4096x4096.Idx → EReal) = Cert.Spec.tr (m ((c.tc : Thread nD τ).loc main_arg1)) := host0_v3 (W0 m c)
theorem in0_wkv (c : Dev nD) : (U1 m c main_v7 : S4096x128.Idx → EReal)
    = Cert.Spec.sideBySide (Cert.Spec.tr (m ((c.tc : Thread nD τ).loc main_arg3))) (Cert.Spec.tr (m ((c.tc : Thread nD τ).loc main_arg5))) := host0_v7 (W0 m c)
theorem in0_wo (c : Dev nD) : (U1 m c main_v10 : S4096x4096.Idx → EReal) = Cert.Spec.tr (m ((c.tc : Thread nD τ).loc main_arg7)) := host0_v10 (W0 m c)
theorem in0_bkv (c : Dev nD) : (U1 m c main_v11 : S1x128.Idx → EReal)
    = Cert.Spec.endToEnd (m ((c.tc : Thread nD τ).loc main_arg4)) (m ((c.tc : Thread nD τ).loc main_arg6)) := host0_v11 (W0 m c)

theorem out0_k (c : Dev nD) : (U2 m c main_v12_0 : S16384x64.Idx → EReal)
    = Cert.Spec.kOut (U1 m c main_v1) (U1 m c main_v7) (U1 m c main_v11) := (W2_arr m c 3).trans (final0_3 (U1 m) c)
theorem out0_v (c : Dev nD) : (U2 m c main_v12_1 : S16384x64.Idx → EReal)
    = Cert.Spec.vOut (U1 m c main_v1) (U1 m c main_v7) (U1 m c main_v11) := (W2_arr m c 4).trans (final0_4 (U1 m) c)

theorem in1_x (c : Dev nD) : U3 m c main_v1 = U1 m c main_v1 :=
  (StableHlo.after_of_writes_sub hostOps1 _ hostOps1_writes (by decide)).trans
    ((W2_arr m c 0).trans (((dat0 (U1 m) c).arrAt_in 0 rfl _).trans (A_eq0 (U1 m) c 0)))
theorem in1_wq (c : Dev nD) : U3 m c main_v3 = U1 m c main_v3 :=
  (StableHlo.after_of_writes_sub hostOps1 _ hostOps1_writes (by decide)).trans (W2_of_ne m c main_v3 (by decide))
theorem in1_bq (c : Dev nD) : (U3 m c main_v16 : S1x4096.Idx → EReal) = Cert.Spec.asRow (m ((c.tc : Thread nD τ).loc main_arg2)) :=
  (host1_v16 (W2 m c)).trans (congrArg Cert.Spec.asRow
    ((W2_of_ne m c main_arg2 (by decide)).trans (StableHlo.after_of_writes_sub hostOps0 _ hostOps0_writes (by decide))))
theorem in1_kt (c : Dev nD) : (U3 m c main_v15 : S16384x64.Idx → EReal) = Cert.Spec.swapInBatch (U2 m c main_v12_0) := host1_v15 (W2 m c)
theorem in1_v (c : Dev nD) : U3 m c main_v12_1 = U2 m c main_v12_1 :=
  StableHlo.after_of_writes_sub hostOps1 _ hostOps1_writes (by decide)

theorem out1 (c : Dev nD) : (U4 m c main_v17 : S16384x4096.Idx → EReal)
    = Cert.Spec.combOut (U3 m c main_v1) (U3 m c main_v3) (U3 m c main_v16) (U3 m c main_v15) (U3 m c main_v12_1) :=
  (W4_arr m c 5).trans (final1_5 (U3 m) c)

theorem in2_x (c : Dev nD) : U5 m c main_v17 = U4 m c main_v17 :=
  StableHlo.after_of_writes_sub hostOps2 _ hostOps2_writes (by decide)
theorem in2_wo (c : Dev nD) : U5 m c main_v10 = U1 m c main_v10 :=
  (StableHlo.after_of_writes_sub hostOps2 _ hostOps2_writes (by decide)).trans <| (W4_of_ne m c main_v10 (by decide)).trans <|
    (StableHlo.after_of_writes_sub hostOps1 _ hostOps1_writes (by decide)).trans (W2_of_ne m c main_v10 (by decide))
theorem in2_bo (c : Dev nD) : (U5 m c main_v18 : S1x4096.Idx → EReal) = Cert.Spec.asRow (m ((c.tc : Thread nD τ).loc main_arg8)) :=
  (host2_v18 (W4 m c)).trans (congrArg Cert.Spec.asRow
    ((W4_of_ne m c main_arg8 (by decide)).trans <| (StableHlo.after_of_writes_sub hostOps1 _ hostOps1_writes (by decide)).trans <|
      (W2_of_ne m c main_arg8 (by decide)).trans (StableHlo.after_of_writes_sub hostOps0 _ hostOps0_writes (by decide))))
theorem out2 (c : Dev nD) : (U6 m c main_v19 : S16384x4096.Idx → EReal)
    = Cert.Spec.fOut (U5 m c main_v17) (U5 m c main_v10) (U5 m c main_v18) := (W6_arr m c 3).trans (final2_3 (U5 m) c)

/-- What the result buffer holds at the end: the three products' outputs threaded through the re-layings between them. -/
theorem kernel_value (c : Dev nD) : (W7 m c (Proc.devRef .tc main_v20) : S256x64x4096.Idx → EReal)
    = Cert.Spec.kernelVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) := by
  refine (host3_v20 (W6 m c)).trans ?_
  unfold Cert.Spec.kernelVal
  refine congrArg Cert.Spec.unrows ?_
  refine (out2 m c).trans ?_
  rw [in2_x, in2_wo, in2_bo, in0_wo, out1, in1_x, in1_wq, in1_bq, in1_kt, in1_v, out0_k, out0_v, in0_x, in0_wq, in0_wkv, in0_bkv]

end Cert.KernelIdeal.Hand

end
-- ==== Proof.SpecBridge.lean ====
import proofs.«423997_j8272107012808_3_alg».proof.Proof.Spec
import Mathlib.Algebra.BigOperators.Group.Finset.Basic

noncomputable section

namespace Cert.Spec

open Idealize.ShloMosaic Idealize.ShloMosaic.ValueIdx

theorem row_lt (b : Fin 256) (s : Fin 64) : b.val * 64 + s.val < 16384 := by
  have := b.isLt; have := s.isLt; omega

theorem row_div (b : Fin 256) (s : Fin 64) : (b.val * 64 + s.val) / 64 = b.val := by
  have := s.isLt; omega

theorem row_mod (b : Fin 256) (s : Fin 64) : (b.val * 64 + s.val) % 64 = s.val := by
  have := s.isLt; omega

/-- Row s of sequence b among the 16384 rows. -/
abbrev row (b : Fin 256) (s : Fin 64) : Fin 16384 := ⟨b.val * 64 + s.val, row_lt b s⟩

theorem ix3_congr {n0 n1 n2 : Nat} {a a' : Fin n0} {b b' : Fin n1} {c c' : Fin n2} (ha : a = a') (hb : b = b') (hc : c = c') :
    ix3 a b c = ix3 a' b' c' := by
  subst ha hb hc; rfl

theorem ix2_congr {n0 n1 : Nat} {a a' : Fin n0} {b b' : Fin n1} (ha : a = a') (hb : b = b') : ix2 a b = ix2 a' b' := by
  subst ha hb; rfl

theorem rows_row (x : Arr3 256 64 4096) (b : Fin 256) (s : Fin 64) (k : Fin 4096) :
    rows x (ix2 (row b s) k) = x (ix3 b s k) := by
  have hb : (⟨(b.val * 64 + s.val) / 64, by have := row_lt b s; omega⟩ : Fin 256) = b := Fin.ext (row_div b s)
  have hs : (⟨(b.val * 64 + s.val) % 64, Nat.mod_lt _ (by decide)⟩ : Fin 64) = s := Fin.ext (row_mod b s)
  exact congrArg x (ix3_congr hb hs rfl)

theorem sideBySide_lt (A B : Arr2 4096 64) (k : Fin 4096) (e : Fin 128) (h : e.val < 64) :
    sideBySide A B (ix2 k e) = A (ix2 k ⟨e.val, h⟩) := by
  unfold sideBySide
  exact dif_pos h

theorem sideBySide_ge (A B : Arr2 4096 64) (k : Fin 4096) (e : Fin 128) (h : ¬ e.val < 64) :
    sideBySide A B (ix2 k e) = B (ix2 k ⟨e.val - 64, by have := e.isLt; omega⟩) := by
  unfold sideBySide
  exact dif_neg h

theorem endToEnd_lt (a b : Arr1 64) (e : Fin 128) (h : e.val < 64) : endToEnd a b (ix2 0 e) = a (ix1 ⟨e.val, h⟩) := by
  unfold endToEnd
  exact dif_pos h

theorem endToEnd_ge (a b : Arr1 64) (e : Fin 128) (h : ¬ e.val < 64) :
    endToEnd a b (ix2 0 e) = b (ix1 ⟨e.val - 64, by have := e.isLt; omega⟩) := by
  unfold endToEnd
  exact dif_neg h

/-- A product over the 16384-row layout against a transposed weight is the projection at the row's sequence and position. -/
theorem mmb_rows {N : Nat} (x : Arr3 256 64 4096) (W : Arr2 N 4096) (bias : Arr1 N) (b : Fin 256) (s : Fin 64) (n : Fin N) :
    mmb (rows x) (tr W) (asRow bias) (row b s) n = proj x W bias b s n := by
  unfold mmb proj
  refine congrArg₂ (· + ·) (Finset.sum_congr rfl (fun k _ => ?_)) rfl
  exact congrArg₂ (· * ·) (rows_row x b s k) rfl

theorem kOut_row (x : Arr3 256 64 4096) (Wk : Arr2 64 4096) (bk : Arr1 64) (Wv : Arr2 64 4096) (bv : Arr1 64)
    (b : Fin 256) (s : Fin 64) (e : Fin 64) :
    kOut (rows x) (sideBySide (tr Wk) (tr Wv)) (endToEnd bk bv) (ix2 (row b s) e) = proj x Wk bk b s e := by
  have he : e.val < 128 := by have := e.isLt; omega
  show mmb (rows x) (sideBySide (tr Wk) (tr Wv)) (endToEnd bk bv) (row b s) ⟨e.val, he⟩ = proj x Wk bk b s e
  unfold mmb proj
  refine congrArg₂ (· + ·) (Finset.sum_congr rfl (fun k _ => ?_)) ?_
  · refine congrArg₂ (· * ·) (rows_row x b s k) ?_
    exact (sideBySide_lt (tr Wk) (tr Wv) k ⟨e.val, he⟩ e.isLt).trans rfl
  · exact (endToEnd_lt bk bv ⟨e.val, he⟩ e.isLt).trans rfl

theorem vOut_row (x : Arr3 256 64 4096) (Wk : Arr2 64 4096) (bk : Arr1 64) (Wv : Arr2 64 4096) (bv : Arr1 64)
    (b : Fin 256) (s : Fin 64) (e : Fin 64) :
    vOut (rows x) (sideBySide (tr Wk) (tr Wv)) (endToEnd bk bv) (ix2 (row b s) e) = proj x Wv bv b s e := by
  have he : 64 + e.val < 128 := by have := e.isLt; omega
  have hn : ¬ (64 + e.val < 64) := by omega
  have hsub : (⟨64 + e.val - 64, by omega⟩ : Fin 64) = e := Fin.ext (by show 64 + e.val - 64 = e.val; omega)
  show mmb (rows x) (sideBySide (tr Wk) (tr Wv)) (endToEnd bk bv) (row b s) ⟨64 + e.val, he⟩ = proj x Wv bv b s e
  unfold mmb proj
  refine congrArg₂ (· + ·) (Finset.sum_congr rfl (fun k _ => ?_)) ?_
  · refine congrArg₂ (· * ·) (rows_row x b s k) ?_
    refine (sideBySide_ge (tr Wk) (tr Wv) k ⟨64 + e.val, he⟩ hn).trans ?_
    show Wv (ix2 ⟨64 + e.val - 64, _⟩ k) = Wv (ix2 e k)
    exact congrArg Wv (ix2_congr hsub rfl)
  · refine (endToEnd_ge bk bv ⟨64 + e.val, he⟩ hn).trans ?_
    exact congrArg bv (congrArg ix1 hsub)

theorem swap_kOut_row (x : Arr3 256 64 4096) (Wk : Arr2 64 4096) (bk : Arr1 64) (Wv : Arr2 64 4096) (bv : Arr1 64)
    (b : Fin 256) (s : Fin 64) (h : Fin 64) :
    swapInBatch (kOut (rows x) (sideBySide (tr Wk) (tr Wv)) (endToEnd bk bv)) (ix2 (row b s) h) = proj x Wk bk b h s := by
  have h1 : (b.val * 64 + s.val) / 64 * 64 + h.val < 16384 := by
    rw [row_div]; exact row_lt b h
  have hr : (⟨(b.val * 64 + s.val) / 64 * 64 + h.val, h1⟩ : Fin 16384) = row b h :=
    Fin.ext (by show (b.val * 64 + s.val) / 64 * 64 + h.val = b.val * 64 + h.val; rw [row_div])
  have hs : (⟨(b.val * 64 + s.val) % 64, Nat.mod_lt _ (by decide)⟩ : Fin 64) = s := Fin.ext (row_mod b s)
  show kOut (rows x) (sideBySide (tr Wk) (tr Wv)) (endToEnd bk bv)
      (ix2 ⟨(b.val * 64 + s.val) / 64 * 64 + h.val, h1⟩ ⟨(b.val * 64 + s.val) % 64, Nat.mod_lt _ (by decide)⟩) = proj x Wk bk b h s
  rw [ix2_congr hr hs]
  exact kOut_row x Wk bk Wv bv b h s

theorem combOut_row (x : Arr3 256 64 4096) (Wq : Arr2 4096 4096) (bq : Arr1 4096) (Wk : Arr2 64 4096) (bk : Arr1 64)
    (Wv : Arr2 64 4096) (bv : Arr1 64) (b : Fin 256) (s : Fin 64) (d : Fin 4096) :
    combOut (rows x) (tr Wq) (asRow bq)
        (swapInBatch (kOut (rows x) (sideBySide (tr Wk) (tr Wv)) (endToEnd bk bv)))
        (vOut (rows x) (sideBySide (tr Wk) (tr Wv)) (endToEnd bk bv)) (ix2 (row b s) d)
      = comb x Wq bq Wk bk Wv bv b s d := by
  have hF : (fun h : Fin 64 =>
        mmb (rows x) (tr Wq) (asRow bq) (row b s)
            ⟨(d.val / 64) * 64 + h.val, by have := d.isLt; have := h.isLt; omega⟩
          * swapInBatch (kOut (rows x) (sideBySide (tr Wk) (tr Wv)) (endToEnd bk bv)) (ix2 (row b s) h) * eighth)
      = (fun h : Fin 64 =>
        proj x Wq bq b s ⟨(d.val / 64) * 64 + h.val, by have := d.isLt; have := h.isLt; omega⟩ * proj x Wk bk b h s * eighth) := by
    funext h
    rw [mmb_rows, swap_kOut_row]
  have hV := vOut_row x Wk bk Wv bv b s ⟨d.val % 64, Nat.mod_lt _ (by decide)⟩
  exact congrArg₂ (· * ·) (congrArg (fun f => smax f ⟨d.val % 64, Nat.mod_lt _ (by decide)⟩) hF) hV

/-- The two arrangements are one function: every index of one is b·64 + s of the other, and the sums are the same sums. -/
theorem kernelVal_eq_refVal (x : Arr3 256 64 4096) (Wq : Arr2 4096 4096) (bq : Arr1 4096) (Wk : Arr2 64 4096) (bk : Arr1 64)
    (Wv : Arr2 64 4096) (bv : Arr1 64) (Wo : Arr2 4096 4096) (bo : Arr1 4096) :
    kernelVal x Wq bq Wk bk Wv bv Wo bo = refVal x Wq bq Wk bk Wv bv Wo bo := by
  funext i
  obtain ⟨b, s, n, rfl⟩ : ∃ (b : Fin 256) (s : Fin 64) (n : Fin 4096), i = ix3 b s n := ⟨i 0, i 1, i 2, eq_ix3 i⟩
  show (∑ d : Fin 4096,
        combOut (rows x) (tr Wq) (asRow bq)
            (swapInBatch (kOut (rows x) (sideBySide (tr Wk) (tr Wv)) (endToEnd bk bv)))
            (vOut (rows x) (sideBySide (tr Wk) (tr Wv)) (endToEnd bk bv)) (ix2 (row b s) d) * Wo (ix2 n d)) + bo (ix1 n)
      = (∑ d : Fin 4096, comb x Wq bq Wk bk Wv bv b s d * Wo (ix2 n d)) + bo (ix1 n)
  refine congrArg₂ (· + ·) (Finset.sum_congr rfl (fun d _ => ?_)) rfl
  exact congrArg₂ (· * ·) (combOut_row x Wq bq Wk bk Wv bv b s d) rfl

end Cert.Spec

end
-- ==== Proof.RefIsSpec.lean ====
import proofs.«423997_j8272107012808_3_alg».proof.Proof.Gen.ReferenceIdeal.Read
import proofs.«423997_j8272107012808_3_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

variable (x0 : (⟨S256x64x4096, .f32⟩ : BufTy).Contents (Elt Ideal)) (x1 : (⟨S4096x4096, .f32⟩ : BufTy).Contents (Elt Ideal))
  (x2 : (⟨S4096, .f32⟩ : BufTy).Contents (Elt Ideal)) (x3 : (⟨S64x4096, .f32⟩ : BufTy).Contents (Elt Ideal))
  (x4 : (⟨S64, .f32⟩ : BufTy).Contents (Elt Ideal)) (x5 : (⟨S64x4096, .f32⟩ : BufTy).Contents (Elt Ideal))
  (x6 : (⟨S64, .f32⟩ : BufTy).Contents (Elt Ideal)) (x7 : (⟨S4096x4096, .f32⟩ : BufTy).Contents (Elt Ideal))
  (x8 : (⟨S4096, .f32⟩ : BufTy).Contents (Elt Ideal))

theorem query_at (b : Fin 256) (s : Fin 64) (n : Fin 4096) :
    val_main_v3 (F := Ideal) x0 x1 x2 (ix3 b s n) = Cert.Spec.proj x0 x1 x2 b s n := by
  have el : ∀ k : Fin 4096, lidx_main_v0 (ix3 b s n) k = ix3 b s k := fun k => funext fun a => Fin.ext (by
    match a with | ⟨0, _⟩ => rfl | ⟨1, _⟩ => rfl | ⟨2, _⟩ => rfl)
  have er : ∀ k : Fin 4096, ridx_main_v0 (ix3 b s n) k = ix2 n k := fun k => funext fun a => Fin.ext (by
    match a with | ⟨0, _⟩ => rfl | ⟨1, _⟩ => rfl)
  have eb : idx_main_v1 (idx_main_v2 (ix3 b s n)) = ix1 n := funext fun a => Fin.ext (by
    match a with | ⟨0, _⟩ => rfl)
  rw [val_main_v3_apply, val_main_v0_apply, val_main_v2_apply, val_main_v1_apply, eb]
  simp only [el, er]
  rfl

theorem key_at (b : Fin 256) (s h : Fin 64) :
    val_main_v9 (F := Ideal) x0 x3 x4 (ix3 b s h) = Cert.Spec.proj x0 x3 x4 b s h := by
  have el : ∀ k : Fin 4096, lidx_main_v6 (ix3 b s h) k = ix3 b s k := fun k => funext fun a => Fin.ext (by
    match a with | ⟨0, _⟩ => rfl | ⟨1, _⟩ => rfl | ⟨2, _⟩ => rfl)
  have er : ∀ k : Fin 4096, ridx_main_v6 (ix3 b s h) k = ix2 h k := fun k => funext fun a => Fin.ext (by
    match a with | ⟨0, _⟩ => rfl | ⟨1, _⟩ => rfl)
  have eb : idx_main_v7 (idx_main_v8 (ix3 b s h)) = ix1 h := funext fun a => Fin.ext (by
    match a with | ⟨0, _⟩ => rfl)
  rw [val_main_v9_apply, val_main_v6_apply, val_main_v8_apply, val_main_v7_apply, eb]
  simp only [el, er]
  rfl

theorem value_at (b : Fin 256) (s h : Fin 64) :
    val_main_v13 (F := Ideal) x0 x5 x6 (ix3 b s h) = Cert.Spec.proj x0 x5 x6 b s h := by
  have el : ∀ k : Fin 4096, lidx_main_v10 (ix3 b s h) k = ix3 b s k := fun k => funext fun a => Fin.ext (by
    match a with | ⟨0, _⟩ => rfl | ⟨1, _⟩ => rfl | ⟨2, _⟩ => rfl)
  have er : ∀ k : Fin 4096, ridx_main_v10 (ix3 b s h) k = ix2 h k := fun k => funext fun a => Fin.ext (by
    match a with | ⟨0, _⟩ => rfl | ⟨1, _⟩ => rfl)
  have eb : idx_main_v11 (idx_main_v12 (ix3 b s h)) = ix1 h := funext fun a => Fin.ext (by
    match a with | ⟨0, _⟩ => rfl)
  rw [val_main_v13_apply, val_main_v10_apply, val_main_v12_apply, val_main_v11_apply, eb]
  simp only [el, er]
  rfl

theorem ofBits_eight : Ideal.ofBits .f32 0x41000000#32 = ((8 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

def scores (b : Fin 256) (g s : Fin 64) : Fin 64 → EReal := fun h =>
  Cert.Spec.proj x0 x1 x2 b s ⟨g.val * 64 + h.val, by have := g.isLt; have := h.isLt; omega⟩
    * Cert.Spec.proj x0 x3 x4 b h s * Cert.Spec.eighth

theorem score_at (b : Fin 256) (g s h : Fin 64) :
    val_main_v19 (F := Ideal) x0 x1 x2 x3 x4 (ix4 b g s h) = scores x0 x1 x2 x3 x4 b g s h := by
  have eq : idx_main_v4 (idx_main_v5 (ix4 b g s h))
      = ix3 b s (⟨g.val * 64 + h.val, by have := g.isLt; have := h.isLt; omega⟩ : Fin 4096) := funext fun a => Fin.ext (by
    have hb := b.isLt; have hg := g.isLt; have hs := s.isLt; have hh := h.isLt
    match a with
    | ⟨0, _⟩ => show (((b.val * 64 + s.val) * 64 + g.val) * 64 + h.val) / 262144 = b.val; omega
    | ⟨1, _⟩ => show (((b.val * 64 + s.val) * 64 + g.val) * 64 + h.val) / 4096 % 64 = s.val; omega
    | ⟨2, _⟩ => show (((b.val * 64 + s.val) * 64 + g.val) * 64 + h.val) % 4096 = g.val * 64 + h.val; omega)
  have ek : idx_main_v14 (idx_main_v15 (idx_main_v16 (ix4 b g s h))) = ix3 b h s := funext fun a => Fin.ext (by
    match a with | ⟨0, _⟩ => rfl | ⟨1, _⟩ => rfl | ⟨2, _⟩ => rfl)
  rw [val_main_v19_apply, val_main_v17_apply, val_main_v5_apply, val_main_v4_apply, eq, query_at,
    val_main_v16_apply, val_main_v15_apply, val_main_v14_apply, ek, key_at, val_main_v18_apply, val_main_cst_apply,
    Ideal.hostDivf_def, Ideal.mulf_def, Ideal.ofBits_def, ofBits_eight, Ideal.div_coe (by norm_num)]
  rfl

theorem lift_last (hr : S256x64x64x64.Reduces [3] S256x64x64) (b : Fin 256) (g s : Fin 64)
    (k : Fin (S256x64x64x64.size 3)) : hr.lift (ix3 b g s) k = ix4 b g s (⟨k.val, k.isLt⟩ : Fin 64) := by
  funext c; apply Fin.ext
  fin_cases c <;> rfl

theorem rowmax_at (b : Fin 256) (g s : Fin 64) :
    val_main_v22 (F := Ideal) x0 x1 x2 x3 x4 (ix3 b g s) = Cert.Spec.rowmax (scores x0 x1 x2 x3 x4 b g s) := by
  have hsc : scores x0 x1 x2 x3 x4 b g s = fun h => val_main_v19 (F := Ideal) x0 x1 x2 x3 x4 (ix4 b g s h) :=
    funext fun h => (score_at x0 x1 x2 x3 x4 b g s h).symm
  rw [hsc, val_main_v22_apply, val_main_v21_apply, val_main_cst_1_apply]
  unfold val_main_v20
  generalize val_main_v19 (F := Ideal) x0 x1 x2 x3 x4 = y
  have hr : S256x64x64x64.Reduces [3] S256x64x64 := by decide
  have hred := Host.reduce_eq_fold_single (FloatOps.maximumf (F := Ideal) (φ := .f32)) y (val_main_cst_0 (F := Ideal))
    reducesTo_S256x64x64x64_S256x64x64_d3 hr h_S_ (ix3 b g s)
  refine (congrArg (FloatOps.maximumf (F := Ideal) (φ := .f32) (FloatOps.ofBits .f32 0xFF800000#32)) hred).trans ?_
  have hf : (y ∘ hr.lift (ix3 b g s)) = fun k : Fin 64 => y (ix4 b g s k) :=
    funext fun k => congrArg y (lift_last hr b g s k)
  refine Eq.trans (congrArg (fun f => max (Ideal.ofBits .f32 0xFF800000#32)
    (Finset.fold max (Ideal.ofBits .f32 0xFF800000#32) f (Finset.univ : Finset (Fin 64)))) hf) ?_
  rw [ofBits_negInf, max_bot_left]
  rfl

theorem expo_at (b : Fin 256) (g s h : Fin 64) :
    val_main_v26 (F := Ideal) x0 x1 x2 x3 x4 (ix4 b g s h)
      = Ideal.exp (scores x0 x1 x2 x3 x4 b g s h - Cert.Spec.rowmax (scores x0 x1 x2 x3 x4 b g s)) := by
  have em : idx_main_v23 (idx_main_v24 (ix4 b g s h)) = ix3 b g s := funext fun a => Fin.ext (by
    match a with | ⟨0, _⟩ => rfl | ⟨1, _⟩ => rfl | ⟨2, _⟩ => rfl)
  rw [val_main_v26_apply, val_main_v25_apply, val_main_v24_apply, val_main_v23_apply, em, rowmax_at, score_at]
  rfl

theorem denom_at (b : Fin 256) (g s : Fin 64) :
    val_main_v27 (F := Ideal) x0 x1 x2 x3 x4 (ix3 b g s)
      = ∑ h' : Fin 64, Ideal.exp (scores x0 x1 x2 x3 x4 b g s h' - Cert.Spec.rowmax (scores x0 x1 x2 x3 x4 b g s)) := by
  have ek : ∀ k : Fin 64, idx_main_v27 (ix3 b g s) k = ix4 b g s k := fun k => funext fun a => Fin.ext (by
    match a with | ⟨0, _⟩ => rfl | ⟨1, _⟩ => rfl | ⟨2, _⟩ => rfl | ⟨3, _⟩ => rfl)
  rw [val_main_v27_apply, val_main_cst_2_apply, Ideal.ofBits_def, Ideal.ofBits_zero_f32, zero_add]
  exact Finset.sum_congr rfl fun k _ => by rw [ek k, expo_at]

theorem weight_at (b : Fin 256) (g s h : Fin 64) :
    val_main_v30 (F := Ideal) x0 x1 x2 x3 x4 (ix4 b g s h) = Cert.Spec.smax (scores x0 x1 x2 x3 x4 b g s) h := by
  have ed : idx_main_v28 (idx_main_v29 (ix4 b g s h)) = ix3 b g s := funext fun a => Fin.ext (by
    match a with | ⟨0, _⟩ => rfl | ⟨1, _⟩ => rfl | ⟨2, _⟩ => rfl)
  rw [val_main_v30_apply, val_main_v29_apply, val_main_v28_apply, ed, denom_at, expo_at]
  rfl

theorem comb_at (b : Fin 256) (s : Fin 64) (d : Fin 4096) :
    val_main_v35 (F := Ideal) x0 x1 x2 x3 x4 x5 x6 (ix3 b s d) = Cert.Spec.comb x0 x1 x2 x3 x4 x5 x6 b s d := by
  have ec : idx_main_v34 (idx_main_v35 (ix3 b s d))
      = ix4 b (⟨d.val / 64, by have := d.isLt; omega⟩ : Fin 64) s (⟨d.val % 64, Nat.mod_lt _ (by decide)⟩ : Fin 64) :=
    funext fun a => Fin.ext (by
      have hb := b.isLt; have hs := s.isLt; have hd := d.isLt
      match a with
      | ⟨0, _⟩ => show ((b.val * 64 + s.val) * 4096 + d.val) / 262144 = b.val; omega
      | ⟨1, _⟩ => show ((b.val * 64 + s.val) * 4096 + d.val) / 64 % 64 = d.val / 64; omega
      | ⟨2, _⟩ => show ((b.val * 64 + s.val) * 4096 + d.val) / 4096 % 64 = s.val; omega
      | ⟨3, _⟩ => show ((b.val * 64 + s.val) * 4096 + d.val) % 64 = d.val % 64; omega)
  have ev : ∀ g h : Fin 64, idx_main_v31 (idx_main_v32 (ix4 b g s h)) = ix3 b s h := fun g h => funext fun a => Fin.ext (by
    match a with | ⟨0, _⟩ => rfl | ⟨1, _⟩ => rfl | ⟨2, _⟩ => rfl)
  rw [val_main_v35_apply, val_main_v34_apply, ec, val_main_v33_apply, weight_at, val_main_v32_apply, val_main_v31_apply, ev,
    value_at]
  rfl

/-- The reference's operations, read at an index one at a time, compose to the three-axis arrangement. -/
theorem ref_is_spec (x0 : (⟨S256x64x4096, .f32⟩ : BufTy).Contents (Elt Ideal)) (x1 : (⟨S4096x4096, .f32⟩ : BufTy).Contents (Elt Ideal))
    (x2 : (⟨S4096, .f32⟩ : BufTy).Contents (Elt Ideal)) (x3 : (⟨S64x4096, .f32⟩ : BufTy).Contents (Elt Ideal))
    (x4 : (⟨S64, .f32⟩ : BufTy).Contents (Elt Ideal)) (x5 : (⟨S64x4096, .f32⟩ : BufTy).Contents (Elt Ideal))
    (x6 : (⟨S64, .f32⟩ : BufTy).Contents (Elt Ideal)) (x7 : (⟨S4096x4096, .f32⟩ : BufTy).Contents (Elt Ideal))
    (x8 : (⟨S4096, .f32⟩ : BufTy).Contents (Elt Ideal)) :
    Cert.ReferenceIdeal.Read.val_main_v39 (F := Ideal) x0 x1 x2 x3 x4 x5 x6 x7 x8
      = Cert.Spec.refVal x0 x1 x2 x3 x4 x5 x6 x7 x8 := by
  funext i
  obtain ⟨b, s, e, rfl⟩ : ∃ (b : Fin 256) (s : Fin 64) (e : Fin 4096), i = ix3 b s e := ⟨i 0, i 1, i 2, eq_ix3 i⟩
  have el : ∀ k : Fin 4096, lidx_main_v36 (ix3 b s e) k = ix3 b s k := fun k => funext fun a => Fin.ext (by
    match a with | ⟨0, _⟩ => rfl | ⟨1, _⟩ => rfl | ⟨2, _⟩ => rfl)
  have er : ∀ k : Fin 4096, ridx_main_v36 (ix3 b s e) k = ix2 e k := fun k => funext fun a => Fin.ext (by
    match a with | ⟨0, _⟩ => rfl | ⟨1, _⟩ => rfl)
  have eb : idx_main_v37 (idx_main_v38 (ix3 b s e)) = ix1 e := funext fun a => Fin.ext (by
    match a with | ⟨0, _⟩ => rfl)
  rw [val_main_v39_apply, val_main_v36_apply, val_main_v38_apply, val_main_v37_apply, eb]
  simp only [el, er, comb_at]
  rfl

end Cert.ReferenceIdeal.RefValue

end
-- ==== Proof.Claims.lean ====
import proofs.«423997_j8272107012808_3_alg».proof.Defs
import proofs.«423997_j8272107012808_3_alg».proof.Proof.KernelIdeal.Run
import proofs.«423997_j8272107012808_3_alg».proof.Proof.KernelIdeal.Value
import proofs.«423997_j8272107012808_3_alg».proof.Proof.SpecBridge
import proofs.«423997_j8272107012808_3_alg».proof.Proof.RefIsSpec
import proofs.«423997_j8272107012808_3_alg».proof.Proof.Gen.ReferenceIdeal.Run
import proofs.«423997_j8272107012808_3_alg».proof.Proof.Gen.ReferenceIdeal.Read
import proofs.«423997_j8272107012808_3_alg».proof.Proof.Gen.KernelIdeal
import proofs.«423997_j8272107012808_3_alg».proof.Proof.Gen.ReferenceIdeal
import proofs.«423997_j8272107012808_3_alg».proof.Proof.Gen.Pre_finite_inputs

noncomputable section

namespace Cert.Proof.Claims

open Idealize.ShloMosaic Idealize.ShloMosaic.TcCoe Idealize.SL.Sem

attribute [local instance] Cert.KernelIdeal.Gen.facts Cert.ReferenceIdeal.Gen.facts Cert.Pre_finite_inputs.Gen.facts

theorem frame_ki : Cert.frame_KernelIdeal := Cert.KernelIdeal.Hand.frame

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the same function of the arguments: the product by 1/8 on one side is the quotient by 8 on the other, and sums are only regrouped, so no finiteness is needed. -/
theorem algebraic : Cert.algebraic_KernelIdeal_ReferenceIdeal := by
  intro m ρ m' ρ' _ hagree
  refine ⟨fun c => Cert.Spec.refVal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨?_, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩)
      (show θ_run Cert.KernelIdeal.defs (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v20)
            = Cert.KernelIdeal.Hand.W7 m c (Proc.devRef .tc Cert.KernelIdeal.main_v20)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) from
        (θ_run Cert.KernelIdeal.defs _ _).mono (fun r h c => ⟨h c _ (Cert.KernelIdeal.Hand.mem_uc Cert.KernelIdeal.main_v20 (by decide)),
          (h c _ (Cert.KernelIdeal.Hand.mem_uc Cert.KernelIdeal.main_arg0 (by decide))).trans (Cert.KernelIdeal.Hand.W7_of m c Cert.KernelIdeal.main_arg0 (by decide)),
          (h c _ (Cert.KernelIdeal.Hand.mem_uc Cert.KernelIdeal.main_arg1 (by decide))).trans (Cert.KernelIdeal.Hand.W7_of m c Cert.KernelIdeal.main_arg1 (by decide)),
          (h c _ (Cert.KernelIdeal.Hand.mem_uc Cert.KernelIdeal.main_arg2 (by decide))).trans (Cert.KernelIdeal.Hand.W7_of m c Cert.KernelIdeal.main_arg2 (by decide)),
          (h c _ (Cert.KernelIdeal.Hand.mem_uc Cert.KernelIdeal.main_arg3 (by decide))).trans (Cert.KernelIdeal.Hand.W7_of m c Cert.KernelIdeal.main_arg3 (by decide)),
          (h c _ (Cert.KernelIdeal.Hand.mem_uc Cert.KernelIdeal.main_arg4 (by decide))).trans (Cert.KernelIdeal.Hand.W7_of m c Cert.KernelIdeal.main_arg4 (by decide)),
          (h c _ (Cert.KernelIdeal.Hand.mem_uc Cert.KernelIdeal.main_arg5 (by decide))).trans (Cert.KernelIdeal.Hand.W7_of m c Cert.KernelIdeal.main_arg5 (by decide)),
          (h c _ (Cert.KernelIdeal.Hand.mem_uc Cert.KernelIdeal.main_arg6 (by decide))).trans (Cert.KernelIdeal.Hand.W7_of m c Cert.KernelIdeal.main_arg6 (by decide)),
          (h c _ (Cert.KernelIdeal.Hand.mem_uc Cert.KernelIdeal.main_arg7 (by decide))).trans (Cert.KernelIdeal.Hand.W7_of m c Cert.KernelIdeal.main_arg7 (by decide)),
          (h c _ (Cert.KernelIdeal.Hand.mem_uc Cert.KernelIdeal.main_arg8 (by decide))).trans (Cert.KernelIdeal.Hand.W7_of m c Cert.KernelIdeal.main_arg8 (by decide))⟩)
          (Cert.KernelIdeal.Hand.run_main m ρ))
    exact (h c).1.trans ((Cert.KernelIdeal.Hand.kernel_value m c).trans (Cert.Spec.kernelVal_eq_refVal _ _ _ _ _ _ _ _ _))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.ReferenceIdeal.RefValue.ref_is_spec,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

end Cert.Proof.Claims

end
-- ==== Proof.lean ====
import proofs.«423997_j8272107012808_3_alg».proof.Defs
import proofs.«423997_j8272107012808_3_alg».proof.Proof.Gen.Kernel
import proofs.«423997_j8272107012808_3_alg».proof.Proof.Gen.KernelIdeal
import proofs.«423997_j8272107012808_3_alg».proof.Proof.Gen.ReferenceIdeal
import proofs.«423997_j8272107012808_3_alg».proof.Proof.Gen.Pre_finite_inputs
import proofs.«423997_j8272107012808_3_alg».proof.Proof.Kernel.Run
import proofs.«423997_j8272107012808_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Kernel.Hand.frame, Claims.frame_ki, Claims.frame_ri, Claims.preserves, Claims.algebraic⟩

end Cert.Proof

end
